-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x3072 : Shape := ⟨2, ![1024, 3072]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024 .f32) (main_arg9 : FVec F S1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S4096 .f32) (main_arg5 : FVec F S4096x1024 .f32) (main_arg6 : FVec F S1024 .f32) (main_arg7 : FVec F S1024 .f32) (main_arg8 : FVec F S1024 .f32) (main_arg9 : FVec F S1024 .f32) (main_arg10 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S1024x3072 .f32) (main_arg2 : FVec F S1024x1024 .f32) (main_arg3 : FVec F S1024x4096 .f32) (main_arg4 : FVec F S4096 .f32) (main_arg5 : FVec F S4096x1024 .f32) (main_arg6 : FVec F S1024 .f32) (main_arg7 : FVec F S1024 .f32) (main_arg8 : FVec F S1024 .f32) (main_arg9 : FVec F S1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x3072 : Shape := ⟨2, ![1024, 3072]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩
abbrev S3072 : Shape := ⟨1, ![3072]⟩
abbrev S1x3072 : Shape := ⟨2, ![1, 3072]⟩
abbrev S8192x3072 : Shape := ⟨2, ![8192, 3072]⟩
abbrev S1x1024 : Shape := ⟨2, ![1, 1024]⟩
abbrev S4x2048x16x3x64 : Shape := ⟨5, ![4, 2048, 16, 3, 64]⟩
abbrev S4x16x3x2048x64 : Shape := ⟨5, ![4, 16, 3, 2048, 64]⟩
abbrev S4x16x1x2048x64 : Shape := ⟨5, ![4, 16, 1, 2048, 64]⟩
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1024x1 : Shape := ⟨2, ![1024, 1]⟩
abbrev S1024x64 : Shape := ⟨2, ![1024, 64]⟩
abbrev S64x1024 : Shape := ⟨2, ![64, 1024]⟩
abbrev S4x2048x16x64 : Shape := ⟨4, ![4, 2048, 16, 64]⟩
abbrev S512x1024 : Shape := ⟨2, ![512, 1024]⟩
abbrev S512 : Shape := ⟨1, ![512]⟩
abbrev S512x1 : Shape := ⟨2, ![512, 1]⟩
abbrev S1x4096 : Shape := ⟨2, ![1, 4096]⟩
abbrev S1024x512 : Shape := ⟨2, ![1024, 512]⟩
abbrev S1x512 : Shape := ⟨2, ![1, 512]⟩
abbrev S512x512 : Shape := ⟨2, ![512, 512]⟩

abbrev nBuf : Space → Nat
  | .hbm => 47
  | .vmem => 45
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S1024x1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8192x1024, .f32⟩
  | .hbm, ⟨12, _⟩ => ⟨S1024x3072, .bf16⟩
  | .hbm, ⟨13, _⟩ => ⟨S1024x1024, .bf16⟩
  | .hbm, ⟨14, _⟩ => ⟨S1024x4096, .bf16⟩
  | .hbm, ⟨15, _⟩ => ⟨S4096x1024, .bf16⟩
  | .hbm, ⟨16, _⟩ => ⟨S_, .f32⟩
  | .hbm, ⟨17, _⟩ => ⟨S3072, .f32⟩
  | .hbm, ⟨18, _⟩ => ⟨S_, .f32⟩
  | .hbm, ⟨19, _⟩ => ⟨S1024, .f32⟩
  | .hbm, ⟨20, _⟩ => ⟨S1x3072, .f32⟩
  | .hbm, ⟨21, _⟩ => ⟨S8192x3072, .bf16⟩
  | .hbm, ⟨22, _⟩ => ⟨S4x2048x16x3x64, .bf16⟩
  | .hbm, ⟨23, _⟩ => ⟨S4x16x3x2048x64, .bf16⟩
  | .hbm, ⟨24, _⟩ => ⟨S4x16x1x2048x64, .bf16⟩
  | .hbm, ⟨25, _⟩ => ⟨S4x16x2048x64, .bf16⟩
  | .hbm, ⟨26, _⟩ => ⟨S64x2048x64, .bf16⟩
  | .hbm, ⟨27, _⟩ => ⟨S4x16x1x2048x64, .bf16⟩
  | .hbm, ⟨28, _⟩ => ⟨S4x16x2048x64, .bf16⟩
  | .hbm, ⟨29, _⟩ => ⟨S64x2048x64, .bf16⟩
  | .hbm, ⟨30, _⟩ => ⟨S4x16x1x2048x64, .bf16⟩
  | .hbm, ⟨31, _⟩ => ⟨S4x16x2048x64, .bf16⟩
  | .hbm, ⟨32, _⟩ => ⟨S64x2048x64, .bf16⟩
  | .hbm, ⟨33, _⟩ => ⟨S64x2048x64, .bf16⟩
  | .hbm, ⟨34, _⟩ => ⟨S4x16x2048x64, .bf16⟩
  | .hbm, ⟨35, _⟩ => ⟨S4x2048x16x64, .bf16⟩
  | .hbm, ⟨36, _⟩ => ⟨S8192x1024, .bf16⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S8192x1024, .f32⟩
  | .hbm, ⟨41, _⟩ => ⟨S1x4096, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S8192x1024, .f32⟩
  | .hbm, ⟨46, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1024x1, .f32⟩
  | .local _ .vmem, ⟨18, _⟩ => ⟨S1024x1, .f32⟩
  | .local _ .vmem, ⟨19, _⟩ => ⟨S1024x64, .f32⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S1024x512, .bf16⟩
  | .local _ .vmem, ⟨34, _⟩ => ⟨S1024x512, .bf16⟩
  | .local _ .vmem, ⟨35, _⟩ => ⟨S1x512, .f32⟩
  | .local _ .vmem, ⟨36, _⟩ => ⟨S1x512, .f32⟩
  | .local _ .vmem, ⟨37, _⟩ => ⟨S512x1024, .bf16⟩
  | .local _ .vmem, ⟨38, _⟩ => ⟨S512x1024, .bf16⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_scratch0 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc3_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![64, 2, 2], ![false, false, false]⟩

def k1_cond3 (i : grid1.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![16, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨2, ![16, 8], ![false, false]⟩

def k3_cond2 (i : grid3.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_14 : BitVec 32 := 0#32
  let v26 : BitVec 1 := Scalar.cmpi .ne v25 c0_i32_14
  v26

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S512x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

class Facts₀ : Prop where
  shapeCasts_S4x2048x1024_S8192x1024 : S4x2048x1024.ShapeCasts S8192x1024
  bitsLt_bf16_f32 : FTy.bits .bf16 < FTy.bits .f32
  bcast_S_S3072 : S_.BroadcastsInDim S3072 (![] : Fin 0 → Fin S3072.rank)
  bcast_S_S1024 : S_.BroadcastsInDim S1024 (![] : Fin 0 → Fin S1024.rank)
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x3072_S4x2048x16x3x64 : S8192x3072.ShapeCasts S4x2048x16x3x64
  transposes_S4x2048x16x3x64_S4x16x3x2048x64_0_2_3_1_4 : S4x2048x16x3x64.Transposes [0, 2, 3, 1, 4] S4x16x3x2048x64
  slices_S4x16x3x2048x64_S4x16x1x2048x64_0_0_0_0_0 : S4x16x3x2048x64.Slices ![0, 0, 0, 0, 0] S4x16x1x2048x64
  shapeCasts_S4x16x1x2048x64_S4x16x2048x64 : S4x16x1x2048x64.ShapeCasts S4x16x2048x64
  shapeCasts_S4x16x2048x64_S64x2048x64 : S4x16x2048x64.ShapeCasts S64x2048x64
  slices_S4x16x3x2048x64_S4x16x1x2048x64_0_0_1_0_0 : S4x16x3x2048x64.Slices ![0, 0, 1, 0, 0] S4x16x1x2048x64
  slices_S4x16x3x2048x64_S4x16x1x2048x64_0_0_2_0_0 : S4x16x3x2048x64.Slices ![0, 0, 2, 0, 0] S4x16x1x2048x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S8192x1024_S4x2048x1024 : S8192x1024.ShapeCasts S4x2048x1024
  dot_S1024x1024_S1024x1024_S1024x1024_1_0_0_1_n_n_wf : DotDims.WF S1024x1024 S1024x1024 S1024x1024 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x3072.size a
  hwx0_3 : ∀ i : grid0.Coords, EltTy.bits .bf16 = 32 ∨ (Rect.block (s := S8192x3072) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x2048x64.size a
  hwx1_0 : ∀ i : grid1.Coords, EltTy.bits .bf16 = 32 ∨ (Rect.block (s := S64x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S64x2048x64.size a
  hwx1_1 : ∀ i : grid1.Coords, EltTy.bits .bf16 = 32 ∨ (Rect.block (s := S64x2048x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S64x2048x64.size a
  hwx1_2 : ∀ i : grid1.Coords, EltTy.bits .bf16 = 32 ∨ (Rect.block (s := S64x2048x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S64x2048x64.size a
  hwx1_3 : ∀ i : grid1.Coords, EltTy.bits .bf16 = 32 ∨ (Rect.block (s := S64x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S8192x1024.size a
  hwx2_6 : ∀ i : grid2.Coords, EltTy.bits .f32 = 32 ∨ (Rect.block (s := S8192x1024) S512x1024.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S8192x1024.size a
  hwx3_0 : ∀ i : grid3.Coords, EltTy.bits .f32 = 32 ∨ (Rect.block (s := S8192x1024) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S1024x4096.size a
  hwx3_1 : ∀ i : grid3.Coords, EltTy.bits .bf16 = 32 ∨ (Rect.block (s := S1024x4096) S1024x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x4096.size a
  hwx3_2 : ∀ i : grid3.Coords, EltTy.bits .f32 = 32 ∨ (Rect.block (s := S1x4096) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S4096x1024.size a
  hwx3_3 : ∀ i : grid3.Coords, EltTy.bits .bf16 = 32 ∨ (Rect.block (s := S4096x1024) S512x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1024.size a ≤ S1x1024.size a
  hwx3_6 : ∀ i : grid3.Coords, EltTy.bits .f32 = 32 ∨ (Rect.block (s := S1x1024) S1x1024.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x1024.size a ≤ S8192x1024.size a
  hwx3_7 : ∀ i : grid3.Coords, EltTy.bits .f32 = 32 ∨ (Rect.block (s := S8192x1024) S512x1024.size (cc3_transform_7 i) (hinb3_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v16) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v23) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v27) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4) S512x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v29) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v30) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v31) S1x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v32) S512x1024.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x3072 : Shape := ⟨2, ![1024, 3072]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x2048x3072 : Shape := ⟨3, ![4, 2048, 3072]⟩
abbrev S4x2048x16x3x64 : Shape := ⟨5, ![4, 2048, 16, 3, 64]⟩
abbrev S4x16x3x2048x64 : Shape := ⟨5, ![4, 16, 3, 2048, 64]⟩
abbrev S4x16x1x2048x64 : Shape := ⟨5, ![4, 16, 1, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S1x1x4096 : Shape := ⟨3, ![1, 1, 4096]⟩

abbrev nBuf : Space → Nat
  | .hbm => 130
  | .vmem => 0
  | .smem => 0
  | _ => 0

abbrev hbmTy0_0 (i : Nat) : BufTy := match i % 128 with
  | 0 => ⟨S4x2048x1024, .f32⟩
  | 1 => ⟨S1024x3072, .f32⟩
  | 2 => ⟨S1024x1024, .f32⟩
  | 3 => ⟨S1024x4096, .f32⟩
  | 4 => ⟨S4096, .f32⟩
  | 5 => ⟨S4096x1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S4x2048x3072, .f32⟩
  | 12 => ⟨S4x2048x16x3x64, .f32⟩
  | 13 => ⟨S4x16x3x2048x64, .f32⟩
  | 14 => ⟨S4x16x1x2048x64, .f32⟩
  | 15 => ⟨S4x16x2048x64, .f32⟩
  | 16 => ⟨S4x16x1x2048x64, .f32⟩
  | 17 => ⟨S4x16x2048x64, .f32⟩
  | 18 => ⟨S4x16x1x2048x64, .f32⟩
  | 19 => ⟨S4x16x2048x64, .f32⟩
  | 20 => ⟨S4x16x2048x2048, .f32⟩
  | 21 => ⟨S_, .i1⟩
  | 22 => ⟨S2048x2048, .i1⟩
  | 23 => ⟨S2048x2048, .i32⟩
  | 24 => ⟨S_, .i32⟩
  | 25 => ⟨S2048x2048, .i32⟩
  | 26 => ⟨S2048x2048, .i32⟩
  | 27 => ⟨S2048x2048, .i32⟩
  | 28 => ⟨S2048x2048, .i1⟩
  | 29 => ⟨S_, .i1⟩
  | 30 => ⟨S2048x2048, .i1⟩
  | 31 => ⟨S2048x2048, .i1⟩
  | 32 => ⟨S_, .f32⟩
  | 33 => ⟨S_, .f32⟩
  | 34 => ⟨S4x16x2048x2048, .i1⟩
  | 35 => ⟨S4x16x2048x2048, .f32⟩
  | 36 => ⟨S4x16x2048x2048, .f32⟩
  | 37 => ⟨S_, .f32⟩
  | 38 => ⟨S_, .f32⟩
  | 39 => ⟨S4x16x2048x2048, .f32⟩
  | 40 => ⟨S4x16x2048x2048, .f32⟩
  | 41 => ⟨S_, .f32⟩
  | 42 => ⟨S4x16x2048, .f32⟩
  | 43 => ⟨S_, .f32⟩
  | 44 => ⟨S4x16x2048, .f32⟩
  | 45 => ⟨S4x16x2048, .f32⟩
  | 46 => ⟨S4x16x2048x1, .f32⟩
  | 47 => ⟨S4x16x2048x2048, .f32⟩
  | 48 => ⟨S4x16x2048x2048, .f32⟩
  | 49 => ⟨S4x16x2048x2048, .f32⟩
  | 50 => ⟨S_, .f32⟩
  | 51 => ⟨S4x16x2048, .f32⟩
  | 52 => ⟨S4x16x2048x1, .f32⟩
  | 53 => ⟨S4x16x2048x2048, .f32⟩
  | 54 => ⟨S4x16x2048x2048, .f32⟩
  | 55 => ⟨S4x16x2048x64, .f32⟩
  | 56 => ⟨S4x2048x16x64, .f32⟩
  | 57 => ⟨S4x2048x1024, .f32⟩
  | 58 => ⟨S4x2048x1024, .f32⟩
  | 59 => ⟨S_, .f32⟩
  | 60 => ⟨S4x2048, .f32⟩
  | 61 => ⟨S4x2048x1, .f32⟩
  | 62 => ⟨S_, .f32⟩
  | 63 => ⟨S4x2048x1, .f32⟩
  | 64 => ⟨S4x2048x1, .f32⟩
  | 65 => ⟨S4x2048x1024, .f32⟩
  | 66 => ⟨S4x2048x1024, .f32⟩
  | 67 => ⟨S4x2048x1024, .f32⟩
  | 68 => ⟨S_, .f32⟩
  | 69 => ⟨S4x2048, .f32⟩
  | 70 => ⟨S4x2048x1, .f32⟩
  | 71 => ⟨S_, .f32⟩
  | 72 => ⟨S4x2048x1, .f32⟩
  | 73 => ⟨S4x2048x1, .f32⟩
  | 74 => ⟨S4x2048x1024, .f32⟩
  | 75 => ⟨S4x2048x1024, .f32⟩
  | 76 => ⟨S_, .f32⟩
  | 77 => ⟨S4x2048x1, .f32⟩
  | 78 => ⟨S4x2048x1, .f32⟩
  | 79 => ⟨S4x2048x1, .f32⟩
  | 80 => ⟨S4x2048x1024, .f32⟩
  | 81 => ⟨S4x2048x1024, .f32⟩
  | 82 => ⟨S1x1x1024, .f32⟩
  | 83 => ⟨S4x2048x1024, .f32⟩
  | 84 => ⟨S4x2048x1024, .f32⟩
  | 85 => ⟨S1x1x1024, .f32⟩
  | 86 => ⟨S4x2048x1024, .f32⟩
  | 87 => ⟨S4x2048x1024, .f32⟩
  | 88 => ⟨S4x2048x1024, .f32⟩
  | 89 => ⟨S4x2048x4096, .f32⟩
  | 90 => ⟨S1x1x4096, .f32⟩
  | 91 => ⟨S4x2048x4096, .f32⟩
  | 92 => ⟨S4x2048x4096, .f32⟩
  | 93 => ⟨S_, .f32⟩
  | 94 => ⟨S4x2048x4096, .f32⟩
  | 95 => ⟨S4x2048x4096, .f32⟩
  | 96 => ⟨S4x2048x1024, .f32⟩
  | 97 => ⟨S1x1x1024, .f32⟩
  | 98 => ⟨S4x2048x1024, .f32⟩
  | 99 => ⟨S4x2048x1024, .f32⟩
  | 100 => ⟨S_, .f32⟩
  | 101 => ⟨S4x2048, .f32⟩
  | 102 => ⟨S4x2048x1, .f32⟩
  | 103 => ⟨S_, .f32⟩
  | 104 => ⟨S4x2048x1, .f32⟩
  | 105 => ⟨S4x2048x1, .f32⟩
  | 106 => ⟨S4x2048x1024, .f32⟩
  | 107 => ⟨S4x2048x1024, .f32⟩
  | 108 => ⟨S4x2048x1024, .f32⟩
  | 109 => ⟨S_, .f32⟩
  | 110 => ⟨S4x2048, .f32⟩
  | 111 => ⟨S4x2048x1, .f32⟩
  | 112 => ⟨S_, .f32⟩
  | 113 => ⟨S4x2048x1, .f32⟩
  | 114 => ⟨S4x2048x1, .f32⟩
  | 115 => ⟨S4x2048x1024, .f32⟩
  | 116 => ⟨S4x2048x1024, .f32⟩
  | 117 => ⟨S_, .f32⟩
  | 118 => ⟨S4x2048x1, .f32⟩
  | 119 => ⟨S4x2048x1, .f32⟩
  | 120 => ⟨S4x2048x1, .f32⟩
  | 121 => ⟨S4x2048x1024, .f32⟩
  | 122 => ⟨S4x2048x1024, .f32⟩
  | 123 => ⟨S1x1x1024, .f32⟩
  | 124 => ⟨S4x2048x1024, .f32⟩
  | 125 => ⟨S4x2048x1024, .f32⟩
  | 126 => ⟨S1x1x1024, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v11 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_v31 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call2_cst : Ref sig .tc := ⟨.hbm, 93, rfl⟩
abbrev main_call2_v0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_9 : Ref sig .tc := ⟨.hbm, 100, rfl⟩
abbrev main_v65 : Ref sig .tc := ⟨.hbm, 101, rfl⟩
abbrev main_v66 : Ref sig .tc := ⟨.hbm, 102, rfl⟩
abbrev main_cst_10 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_11 : Ref sig .tc := ⟨.hbm, 109, rfl⟩
abbrev main_v72 : Ref sig .tc := ⟨.hbm, 110, rfl⟩
abbrev main_v73 : Ref sig .tc := ⟨.hbm, 111, rfl⟩
abbrev main_cst_12 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_13 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩

abbrev nD : Nat := 1
abbrev τ : Topo := Topo.v7x

variable {F : FTy → Type} [FloatOps F]

class Facts₀ : Prop where
  shapeCasts_S4x2048x3072_S4x2048x16x3x64 : S4x2048x3072.ShapeCasts S4x2048x16x3x64
  transposes_S4x2048x16x3x64_S4x16x3x2048x64_0_2_3_1_4 : S4x2048x16x3x64.Transposes [0, 2, 3, 1, 4] S4x16x3x2048x64
  slices_S4x16x3x2048x64_S4x16x1x2048x64_0_0_0_0_0 : S4x16x3x2048x64.Slices ![0, 0, 0, 0, 0] S4x16x1x2048x64
  shapeCasts_S4x16x1x2048x64_S4x16x2048x64 : S4x16x1x2048x64.ShapeCasts S4x16x2048x64
  slices_S4x16x3x2048x64_S4x16x1x2048x64_0_0_1_0_0 : S4x16x3x2048x64.Slices ![0, 0, 1, 0, 0] S4x16x1x2048x64
  slices_S4x16x3x2048x64_S4x16x1x2048x64_0_0_2_0_0 : S4x16x3x2048x64.Slices ![0, 0, 2, 0, 0] S4x16x1x2048x64
  bcast_S_S2048x2048 : S_.BroadcastsInDim S2048x2048 (![] : Fin 0 → Fin S2048x2048.rank)
  bcast_S2048x2048_S4x16x2048x2048_2_3 : S2048x2048.BroadcastsInDim S4x16x2048x2048 (![2, 3] : Fin 2 → Fin S4x16x2048x2048.rank)
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x1024_S1024x3072_S4x2048x3072_2_0_01_1_n_n_wf : DotDims.WF S4x2048x1024 S1024x3072 S4x2048x3072 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_0_01_1_n_n_wf : DotDims.WF S4x2048x1024 S1024x1024 S4x2048x1024 [2] [0] [0, 1] [1] [] []
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.Kernel.Shape.lean ====
import proofs.«423649_j35837207118382_3_alg».proof.Proof.Gen.Kernel.Launch
import proofs.«423649_j35837207118382_3_alg».proof.Proof.Gen.Kernel.Skeleton
import proofs.«423649_j35837207118382_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S1024x1024 .f32 := iblk0 V c 0 t
abbrev wb0 (c : Dev nD) (t : Fin cfg0.N) : Vec F S1024x1024 .bf16 := iblk0 V c 1 t
abbrev bb0 (c : Dev nD) (t : Fin cfg0.N) : Vec F S1x1024 .f32 := iblk0 V c 2 t

def acc0 (x : Vec F S1024x1024 .f32) (w : Vec F S1024x1024 .bf16) : Vec F S1024x1024 .f32 :=
  k0_pay2 x (k0_pay1 (F := F)) w

def out0 (x : Vec F S1024x1024 .f32) (w : Vec F S1024x1024 .bf16) (b : Vec F S1x1024 .f32) : Vec F S1024x1024 .bf16 :=
  k0_pay3 (acc0 x w) b

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (xb0 V c t) (wb0 V c t) (bb0 V c t)
  Φ _ := Pipeline.ΦA spec0 c
  q _ := fullShare
  owed _ := 0

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev qb1 (c : Dev nD) (t : Fin cfg1.N) : Vec F S1x1024x64 .bf16 := iblk1 V c 0 t
abbrev kb1 (c : Dev nD) (t : Fin cfg1.N) : Vec F S1x1024x64 .bf16 := iblk1 V c 1 t
abbrev vb1 (c : Dev nD) (t : Fin cfg1.N) : Vec F S1x1024x64 .bf16 := iblk1 V c 2 t

abbrev qw1 (t : Fin cfg1.N) : BitVec 32 := BitVec.ofNat 32 ((grid1.coords t) 1).val
abbrev kw1 (t : Fin cfg1.N) : BitVec 32 := BitVec.ofNat 32 ((grid1.coords t) 2).val

abbrev St1 (F : FTy → Type) : Type := Vec F S1024x1 .f32 × Vec F S1024x1 .f32 × Vec F S1024x64 .f32

def init1 : St1 F := (k1_pay1 (F := F), k1_pay2 (F := F), k1_pay3 (F := F))

-- One key tile folded into the running maximum, denominator and numerator of a query row.
def fold1 (a1 a2 : BitVec 32) (q k v : Vec F S1x1024x64 .bf16) (s : St1 F) : St1 F :=
  (k1_pay5 (k1_pay8 a1 a2 q k s.1),
   k1_pay11 a1 a2 q k s.1 s.1 s.2.1,
   k1_pay4 (k1_pay9 a1 a2 q k s.1 s.1) (k1_pay10 a1 a2 q k s.1) v s.2.2)

def quot1 (s : St1 F) : Vec F S1x1024x64 .bf16 := k1_pay6 s.2.2 s.2.1

-- The running state after position n: reset and fold at a first key tile, kept above the diagonal, folded at the second tile.
def st1 (c : Dev nD) : (n : ℕ) → n < cfg1.N → St1 F
  | 0, hn => fold1 (qw1 ⟨0, hn⟩) (kw1 ⟨0, hn⟩) (qb1 V c ⟨0, hn⟩) (kb1 V c ⟨0, hn⟩) (vb1 V c ⟨0, hn⟩) init1
  | n + 1, hn =>
    if (n + 1) % 4 = 1 then st1 c n (Nat.lt_of_succ_lt hn)
    else if (n + 1) % 4 = 3 then
      fold1 (qw1 ⟨n + 1, hn⟩) (kw1 ⟨n + 1, hn⟩) (qb1 V c ⟨n + 1, hn⟩) (kb1 V c ⟨n + 1, hn⟩) (vb1 V c ⟨n + 1, hn⟩) (st1 c n (Nat.lt_of_succ_lt hn))
    else
      fold1 (qw1 ⟨n + 1, hn⟩) (kw1 ⟨n + 1, hn⟩) (qb1 V c ⟨n + 1, hn⟩) (kb1 V c ⟨n + 1, hn⟩) (vb1 V c ⟨n + 1, hn⟩) init1

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

def Phi1 (c : Dev nD) : (n : ℕ) → n ≤ cfg1.N → sProp 𝕄
  | 0, _ => Pipeline.ΦA spec1 c
  | n + 1, hn => iprop(iprop(owns (c : Thread nD τ) scM1_0 fullShare (st1 V c n hn).1
        ∗ owns (c : Thread nD τ) scM1_1 fullShare (st1 V c n hn).2.1
        ∗ owns (c : Thread nD τ) scM1_2 fullShare (st1 V c n hn).2.2)
      ∗ Pipeline.scopedRestBut (Ix := Unit) (Name := ℕ) (U := UR sig nD τ) (Lvl := ℕ) (Val := Elt F) spec1 c [cc1_scratch0, cc1_scratch1, cc1_scratch2]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => quot1 (st1 V c t.val t.isLt)
  Φ t := Phi1 V c t.val (Nat.le_of_lt_succ t.isLt)
  q _ := fullShare
  owed _ := 0

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev hb2 (c : Dev nD) (t : Fin cfg2.N) : Vec F S512x1024 .bf16 := iblk2 V c 0 t
abbrev wb2 (c : Dev nD) (t : Fin cfg2.N) : Vec F S1024x1024 .bf16 := iblk2 V c 1 t
abbrev bb2 (c : Dev nD) (t : Fin cfg2.N) : Vec F S1x1024 .f32 := iblk2 V c 2 t
abbrev rb2 (c : Dev nD) (t : Fin cfg2.N) : Vec F S512x1024 .f32 := iblk2 V c 3 t
abbrev gb2 (c : Dev nD) (t : Fin cfg2.N) : Vec F S1x1024 .f32 := iblk2 V c 4 t
abbrev lb2 (c : Dev nD) (t : Fin cfg2.N) : Vec F S1x1024 .f32 := iblk2 V c 5 t

def acc2 (h : Vec F S512x1024 .bf16) (w : Vec F S1024x1024 .bf16) : Vec F S512x1024 .f32 :=
  k2_pay2 h (k2_pay1 (F := F)) w
def out2 (h : Vec F S512x1024 .bf16) (w : Vec F S1024x1024 .bf16) (b : Vec F S1x1024 .f32) (r : Vec F S512x1024 .f32)
    (g : Vec F S1x1024 .f32) (l : Vec F S1x1024 .f32) : Vec F S512x1024 .f32 :=
  k2_pay3 (acc2 h w) b g l r

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (hb2 V c t) (wb2 V c t) (bb2 V c t) (rb2 V c t) (gb2 V c t) (lb2 V c t)
  Φ _ := Pipeline.ΦA spec2 c
  q _ := fullShare
  owed _ := 0

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xb3 (c : Dev nD) (t : Fin cfg3.N) : Vec F S512x1024 .f32 := iblk3 V c 0 t
abbrev ub3 (c : Dev nD) (t : Fin cfg3.N) : Vec F S1024x512 .bf16 := iblk3 V c 1 t
abbrev cb3 (c : Dev nD) (t : Fin cfg3.N) : Vec F S1x512 .f32 := iblk3 V c 2 t
abbrev db3 (c : Dev nD) (t : Fin cfg3.N) : Vec F S512x1024 .bf16 := iblk3 V c 3 t
abbrev eb3 (c : Dev nD) (t : Fin cfg3.N) : Vec F S1x1024 .f32 := iblk3 V c 4 t
abbrev gb3 (c : Dev nD) (t : Fin cfg3.N) : Vec F S1x1024 .f32 := iblk3 V c 5 t
abbrev lb3 (c : Dev nD) (t : Fin cfg3.N) : Vec F S1x1024 .f32 := iblk3 V c 6 t

-- The accumulator after position n: the tile's product added to zero at the first hidden tile, to the previous sum otherwise.
def acc3 (c : Dev nD) : (n : ℕ) → n < cfg3.N → Vec F S512x1024 .f32
  | 0, hn => k3_pay2 (xb3 V c ⟨0, hn⟩) (ub3 V c ⟨0, hn⟩) (cb3 V c ⟨0, hn⟩) (k3_pay1 (F := F)) (db3 V c ⟨0, hn⟩)
  | n + 1, hn =>
    if (n + 1) % 8 = 0 then
      k3_pay2 (xb3 V c ⟨n + 1, hn⟩) (ub3 V c ⟨n + 1, hn⟩) (cb3 V c ⟨n + 1, hn⟩) (k3_pay1 (F := F)) (db3 V c ⟨n + 1, hn⟩)
    else
      k3_pay2 (xb3 V c ⟨n + 1, hn⟩) (ub3 V c ⟨n + 1, hn⟩) (cb3 V c ⟨n + 1, hn⟩) (acc3 c n (Nat.lt_of_succ_lt hn)) (db3 V c ⟨n + 1, hn⟩)

abbrev scM3_0 : Memref sig .tc .vmem S512x1024 .f32 := Memref.whole cc3_scratch0

def Phi3 (c : Dev nD) : (n : ℕ) → n ≤ cfg3.N → sProp 𝕄
  | 0, _ => Pipeline.ΦA spec3 c
  | n + 1, hn => iprop(owns (c : Thread nD τ) scM3_0 fullShare (acc3 V c n hn)
      ∗ Pipeline.scopedRestBut (Ix := Unit) (Name := ℕ) (U := UR sig nD τ) (Lvl := ℕ) (Val := Elt F) spec3 c [cc3_scratch0]
      ∗ (∃ r, prngReg c r))

def out3 (c : Dev nD) (t : Fin cfg3.N) : Vec F S512x1024 .f32 :=
  k3_pay3 (acc3 V c t.val t.isLt) (eb3 V c t) (gb3 V c t) (lb3 V c t) (xb3 V c t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3 V c t
  Φ t := Phi3 V c t.val (Nat.le_of_lt_succ t.isLt)
  q _ := fullShare
  owed _ := 0

end Cert.Kernel.Hand

end
-- ==== Proof.Kernel.Fold.lean ====
import proofs.«423649_j35837207118382_3_alg».proof.Proof.Kernel.Shape
import proofs.«423649_j35837207118382_3_alg».proof.Proof.Gen.Kernel.Regions

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

abbrev W1 (c : Dev nD) : Valuation τ sig (Elt F) := Gen.V1 m c
abbrev ent0 (c : Dev nD) (b : Ref sig .tc) : Buf (Elt F) ((c : Thread nD τ).loc b) := W1 m c (Proc.devRef .tc b)
def W2 (c : Dev nD) : Valuation τ sig (Elt F) :=
  Pipeline.withArrays spec0 c (W1 m c) fun w => (dat0 (ent0 m) c).arrAt w cfg0.N

theorem W2_arr (c : Dev nD) (w : Fin cfg0.W) :
    W2 m c (Proc.devRef .tc (Pipeline.arrRef spec0 w)) = (dat0 (ent0 m) c).arrAt w cfg0.N :=
  Pipeline.withArrays_arr spec0 Gen.launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

abbrev W3 (c : Dev nD) : Valuation τ sig (Elt F) := StableHlo.after Gen.hostOps1 (W2 m c)
abbrev ent1 (c : Dev nD) (b : Ref sig .tc) : Buf (Elt F) ((c : Thread nD τ).loc b) := W3 m c (Proc.devRef .tc b)
def W4 (c : Dev nD) : Valuation τ sig (Elt F) :=
  Pipeline.withArrays spec1 c (W3 m c) fun w => (dat1 (ent1 m) c).arrAt w cfg1.N

theorem W4_arr (c : Dev nD) (w : Fin cfg1.W) :
    W4 m c (Proc.devRef .tc (Pipeline.arrRef spec1 w)) = (dat1 (ent1 m) c).arrAt w cfg1.N :=
  Pipeline.withArrays_arr spec1 Gen.launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb

abbrev W5 (c : Dev nD) : Valuation τ sig (Elt F) := StableHlo.after Gen.hostOps2 (W4 m c)
abbrev ent2 (c : Dev nD) (b : Ref sig .tc) : Buf (Elt F) ((c : Thread nD τ).loc b) := W5 m c (Proc.devRef .tc b)
def W6 (c : Dev nD) : Valuation τ sig (Elt F) :=
  Pipeline.withArrays spec2 c (W5 m c) fun w => (dat2 (ent2 m) c).arrAt w cfg2.N

theorem W6_arr (c : Dev nD) (w : Fin cfg2.W) :
    W6 m c (Proc.devRef .tc (Pipeline.arrRef spec2 w)) = (dat2 (ent2 m) c).arrAt w cfg2.N :=
  Pipeline.withArrays_arr spec2 Gen.launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb

abbrev W7 (c : Dev nD) : Valuation τ sig (Elt F) := StableHlo.after Gen.hostOps3 (W6 m c)
abbrev ent3 (c : Dev nD) (b : Ref sig .tc) : Buf (Elt F) ((c : Thread nD τ).loc b) := W7 m c (Proc.devRef .tc b)
def W8 (c : Dev nD) : Valuation τ sig (Elt F) :=
  Pipeline.withArrays spec3 c (W7 m c) fun w => (dat3 (ent3 m) c).arrAt w cfg3.N

theorem W8_arr (c : Dev nD) (w : Fin cfg3.W) :
    W8 m c (Proc.devRef .tc (Pipeline.arrRef spec3 w)) = (dat3 (ent3 m) c).arrAt w cfg3.N :=
  Pipeline.withArrays_arr spec3 Gen.launch3.win.arr_inj c _ _ w

abbrev W9 (c : Dev nD) : Valuation τ sig (Elt F) := StableHlo.after Gen.hostOps4 (W8 m c)

end Cert.Kernel.Hand

end
-- ==== Proof.Kernel.Frame0.lean ====
import proofs.«423649_j35837207118382_3_alg».proof.Proof.Kernel.Shape
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem pt0 : ∀ t : Fin cfg0.N,
    (Scalar.cmpi .ne (Scalar.extui (Scalar.cmpi .eq (BitVec.ofNat 32 (grid0.coords t 2).val) 0#32)) 0#32) = 1#1
      ∧ k0_cond2 (grid0.coords t) = 1#1 ∧ cfg0.idle 3 (grid0.coords t) = false := by decide +kernel

private theorem hz2 : (![0, 0] : Fin 2 → ℕ) = fun _ => 0 := by funext a; fin_cases a <;> rfl

theorem A_eq0 (c : Dev nD) (w : Fin cfg0.W) : (dat0 V c).A w = V c (Pipeline.arrRef spec0 w) := by
  dsimp only [dat0]

theorem before0 (c : Dev nD) (t : Fin cfg0.N) (w : Fin cfg0.W) (hw : w ≠ 3) (d) : (dat0 V c).before w t d = (dat0 V c).after w t := by
  rcases (by decide : ∀ w : Fin cfg0.W, w ≠ 3 → w = 0 ∨ w = 1 ∨ w = 2) w hw with rfl | rfl | rfl <;>
    refine Eq.trans (Dat.before_in_eq_fetched (dat0 V c) _ ?_ ?_ ?_ ?_ t d) ?_ <;> intros <;>
    first | (dsimp only [Dat.fetched, Dat.blockOf, dat0]; rfl) | rfl

set_option maxHeartbeats 1000000 in
theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl, (pt0 t).2.2]
  simp (disch := decide) only [before0 V c t]
  dsimp only [dat0]
  unfold Pipeline.ΦA; rw [scopedRest0_split]
  change _ ⊢ wp _ _ _ (bodyAt0 t) _
  unfold bodyAt0
  simp only [cc0_kernel_eq_skeleton, ← owns_whole]; unfold cc0_kernel_skel owns
  iintro ⟨⟨⟨⟨%d7, %f7, -, H7⟩, Hrest⟩, Hg⟩, Ho, ⟨%d0, %f3, %hf3, H3⟩, ⟨%d1, %f4, %hf4, H4⟩, ⟨%d2, %f5, %hf5, H5⟩, ⟨%d3, %f6, -, H6⟩⟩
  sl_exec (disch := first | exact (pt0 t).1 | exact (pt0 t).2.1)
  sl_step
  iframe Hrest Hg Ho
  isplitl [H7]; · iexists _, _; isplitr; swap; iexact H7; ipureintro; rfl
  isplitl [H3]; · iexists f3; isplitr; ipureintro; exact hf3; iexact H3
  isplitl [H4]; · iexists f4; isplitr; ipureintro; exact hf4; iexact H4
  isplitl [H5]; · iexists f5; isplitr; ipureintro; exact hf5; iexact H5
  iexists _; isplitr; swap; iexact H6
  ipureintro
  rw [View.read_writes_eq_canon _ _ _ (fun y => ⟨_, List.mem_singleton_self _,
    View.mem_set_unit_zero hz2 inb_S1024x1024_S1024x1024_0_0 y⟩), View.canon_unit_zero hz2]
  sl_unfold_words
  unfold out0 acc0
  rw [View.readCov_cons_toLoadRect, View.readCov_cons_toLoadRect]
  simp only [View.readAt_eq_ld, hf3, hf4, hf5, View.ld_unit_zero (S := S1024x1024) hz2, View.ld_unit_zero (S := S1x1024) hz2]

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.Kernel.Hand

end
-- ==== Proof.Kernel.Frame1.lean ====
import proofs.«423649_j35837207118382_3_alg».proof.Proof.Kernel.Shape
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq1 (c : Dev nD) (w : Fin cfg1.W) : (dat1 V c).A w = V c (Pipeline.arrRef spec1 w) := rfl

abbrev cond1_0 (i : grid1.Coords) : Prop :=
  (Scalar.cmpi .ne (Scalar.extui (Scalar.cmpi .eq (BitVec.ofNat 32 (i 2).val) 0#32)) 0#32) = 1#1
abbrev cond1_1 (i : grid1.Coords) : Prop :=
  (Scalar.cmpi .ne (Scalar.extui (Scalar.cmpi .sle (BitVec.ofNat 32 (i 2).val) (BitVec.ofNat 32 (i 1).val))) 0#32) = 1#1

/-- The body's three branch conditions over the grid: only three combinations occur, by position modulo 4. -/
theorem case1 : ∀ t : Fin cfg1.N,
    t.val % 2 = 0 ∧ cond1_0 (grid1.coords t) ∧ cond1_1 (grid1.coords t) ∧ ¬k1_cond3 (grid1.coords t) = 1#1
    ∨ t.val % 4 = 1 ∧ ¬cond1_0 (grid1.coords t) ∧ ¬cond1_1 (grid1.coords t) ∧ k1_cond3 (grid1.coords t) = 1#1
    ∨ t.val % 4 = 3 ∧ ¬cond1_0 (grid1.coords t) ∧ cond1_1 (grid1.coords t) ∧ k1_cond3 (grid1.coords t) = 1#1 :=
  (by decide +kernel : ∀ t : Fin grid1.N, _)

theorem idle1_3 : ∀ t : Fin cfg1.N, cfg1.idle 3 (grid1.coords t) = decide (t.val % 2 = 0) :=
  (by decide +kernel : ∀ t : Fin grid1.N, _)
theorem liveAt1 : ∀ w : Fin cfg1.W, w ≠ 3 → ∀ t : Fin cfg1.N, cfg1.idle w (grid1.coords t) = false :=
  (by decide +kernel : ∀ w : Fin 4, w ≠ 3 → ∀ t : Fin grid1.N, _)
theorem noFlush1_3 (t : Fin cfg1.N) (h : t.val % 2 = 0) : (cfg1.win 3).flush t = false :=
  Bool.eq_false_iff.mpr fun hf => absurd ((flush1_3 t).mp hf) (by omega)

theorem hz2a : (![0, 0] : Fin S1024x1.rank → Nat) = fun _ => 0 := funext fun a => by fin_cases a <;> rfl
theorem hz2b : (![0, 0] : Fin S1024x64.rank → Nat) = fun _ => 0 := funext fun a => by fin_cases a <;> rfl
theorem hz3 : (![0, 0, 0] : Fin S1x1024x64.rank → Nat) = fun _ => 0 := funext fun a => by fin_cases a <;> rfl

/-- The last store covers every index, so it hides the earlier stores and the old contents. -/
theorem read_store {sp : Space} {S : Shape} {e : EltTy} (m : Memref sig .tc sp S e) (f : m.view.ty.Contents (Elt F))
    {off : Fin S.rank → Nat} (h : off = fun _ => 0) (inb : ∀ a, off a + S.size a ≤ S.size a) (w : S.Idx → Elt F e)
    (L : List (View.Piece (Elt F) S e)) :
    m.view.read (Elt F) (m.view.writes (Elt F) f (⟨Rect.unit off S.size inb, w⟩ :: L)) = w := by
  rw [View.read_writes_eq_canon _ _ _ (fun y => ⟨_, List.Mem.head _, View.mem_set_unit_zero h inb y⟩), View.canon_cons_unit_zero h]

/-- The body at coordinates `i`, from state `s` and output `y`: reset and fold, or store the quotient, or fold and store it. -/
def Step1 (i : grid1.Coords) (q k v y y' : Vec F S1x1024x64 .bf16) (s s' : St1 F) : Prop :=
  cond1_0 i ∧ cond1_1 i ∧ ¬k1_cond3 i = 1#1 ∧ s' = fold1 (BitVec.ofNat 32 (i 1).val) (BitVec.ofNat 32 (i 2).val) q k v init1 ∧ y' = y
  ∨ ¬cond1_0 i ∧ ¬cond1_1 i ∧ k1_cond3 i = 1#1 ∧ s' = s ∧ y' = quot1 s'
  ∨ ¬cond1_0 i ∧ cond1_1 i ∧ k1_cond3 i = 1#1 ∧ s' = fold1 (BitVec.ofNat 32 (i 1).val) (BitVec.ofNat 32 (i 2).val) q k v s ∧ y' = quot1 s'

section Run

variable (c : Dev nD) (i : grid1.Coords)
  (arg3 : Memref sig .tc .vmem S1x1024x64 .bf16) (harg3 : arg3.IsWhole) (arg4 : Memref sig .tc .vmem S1x1024x64 .bf16) (harg4 : arg4.IsWhole)
  (arg5 : Memref sig .tc .vmem S1x1024x64 .bf16) (harg5 : arg5.IsWhole) (arg6 : Memref sig .tc .vmem S1x1024x64 .bf16) (harg6 : arg6.IsWhole)
  (arg7 : Memref sig .tc .vmem S1024x1 .f32) (harg7 : arg7.IsWhole) (arg8 : Memref sig .tc .vmem S1024x1 .f32) (harg8 : arg8.IsWhole)
  (arg9 : Memref sig .tc .vmem S1024x64 .f32) (harg9 : arg9.IsWhole)

/-- The body's seven buffers: the three input blocks, the output block, the running state. -/
def bufs1 (q k v y : Vec F S1x1024x64 .bf16) (s : St1 F) : sProp 𝕄 :=
  iprop(owns (c : Thread nD τ) arg3 fullShare q ∗ owns (c : Thread nD τ) arg4 fullShare k ∗ owns (c : Thread nD τ) arg5 fullShare v ∗ owns (c : Thread nD τ) arg6 fullShare y
    ∗ owns (c : Thread nD τ) arg7 fullShare s.1 ∗ owns (c : Thread nD τ) arg8 fullShare s.2.1 ∗ owns (c : Thread nD τ) arg9 fullShare s.2.2)

set_option maxHeartbeats 2000000 in
theorem run1 (q k v y y' : Vec F S1x1024x64 .bf16) (s s' : St1 F) (h : Step1 i q k v y y' s s') (E : Set ℕ) (K : PUnit → sProp 𝕄) :
    iprop(bufs1 c arg3 arg4 arg5 arg6 arg7 arg8 arg9 q k v y s ∗ (bufs1 c arg3 arg4 arg5 arg6 arg7 arg8 arg9 q k v y' s' -∗ K ⟨⟩))
      ⊢ wp frame (wpE (defs₀ (F := F)) Variants.none c none) E (cc1_kernel i arg3 harg3 arg4 harg4 arg5 harg5 arg6 harg6 arg7 harg7 arg8 harg8 arg9 harg9) K := by
  rcases h with ⟨hc0, hc1, hc2, rfl, rfl⟩ | ⟨hc0, hc1, hc2, rfl, rfl⟩ | ⟨hc0, hc1, hc2, rfl, rfl⟩ <;>
  · simp only [cc1_kernel_eq_skeleton, k1_part1_eq_skeleton]; unfold cc1_kernel_skel bufs1 owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
    subst hf3 hf4 hf5 hf6
    obtain rfl := harg7.eq_unread hf7; obtain rfl := harg8.eq_unread hf8; obtain rfl := harg9.eq_unread hf9
    sl_exec (disch := first | exact hc0 | exact hc1 | exact hc2)
    sl_step
    iapply Hk
    isplitl [H3]; iexists _; isplitr; swap; iexact H3; ipureintro; rotate_left
    isplitl [H4]; iexists _; isplitr; swap; iexact H4; ipureintro; rotate_left
    isplitl [H5]; iexists _; isplitr; swap; iexact H5; ipureintro; rotate_left
    isplitl [H6]; iexists _; isplitr; swap; iexact H6; ipureintro; rotate_left
    isplitl [H7]; iexists _; isplitr; swap; iexact H7; ipureintro; rotate_left
    isplitl [H8]; iexists _; isplitr; swap; iexact H8; ipureintro; rotate_left
    iexists _; isplitr; swap; iexact H9; ipureintro
    all_goals sl_unfold_words
    all_goals simp only [fold1, init1, quot1, View.readAt_eq_ld,
      Memref.IsWhole.read_unread, View.ld_unit_zero (S := S1x1024x64) hz3, View.ld_unit_zero (S := S1024x1) hz2a,
      View.ld_unit_zero (S := S1024x64) hz2b, View.readCov_unit_zero (S := S1024x1) _ hz2a, View.readCov_unit_zero (S := S1024x64) _ hz2b]
    all_goals first | exact read_store _ _ hz2a _ _ _ | exact read_store _ _ hz3 _ _ _

end Run

theorem st1_eq (c : Dev nD) (t : Fin cfg1.N) : st1 V c t.val t.isLt =
    if t.val % 4 = 1 then st1 V c (t.val - 1) (Nat.lt_of_le_of_lt (Nat.sub_le _ _) t.isLt)
    else fold1 (qw1 t) (kw1 t) (qb1 V c t) (kb1 V c t) (vb1 V c t)
      (if t.val % 4 = 3 then st1 V c (t.val - 1) (Nat.lt_of_le_of_lt (Nat.sub_le _ _) t.isLt) else init1) := by
  obtain ⟨n, hn⟩ := t
  cases n with
  | zero => rfl
  | succ n => dsimp only; rw [st1]; split_ifs <;> rfl

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
            ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2])
        ∗ (∃ r, prngReg c r)) := by
  unfold Pipeline.ΦA; rw [scopedRest1_split]; simp only [scM1_0, scM1_1, scM1_2, owns_whole]; try rfl

/-- The invariant with the three scratch buffers at state `s`. -/
def inv1 (c : Dev nD) (s : St1 F) : sProp 𝕄 :=
  iprop(iprop(owns (c : Thread nD τ) scM1_0 fullShare s.1 ∗ owns (c : Thread nD τ) scM1_1 fullShare s.2.1 ∗ owns (c : Thread nD τ) scM1_2 fullShare s.2.2)
    ∗ Pipeline.scopedRestBut (Ix := Unit) (Name := ℕ) (U := UR sig nD τ) (Lvl := ℕ) (Val := Elt F) spec1 c [cc1_scratch0, cc1_scratch1, cc1_scratch2]
    ∗ (∃ r, prngReg c r))

/-- Before any position the scratch buffers are at some state: the previous position's, if there is one. -/
theorem Phi1_elim (c : Dev nD) (n : ℕ) (h : n ≤ cfg1.N) :
    Phi1 V c n h ⊢ iprop(∃ s : St1 F, ⌜∀ h0 : n ≠ 0, s = st1 V c (n - 1) (by omega)⌝ ∗ inv1 c s) := by
  cases n with
  | zero =>
    show (Pipeline.ΦA spec1 c : sProp 𝕄) ⊢ _
    rw [PhiA1_eq]; unfold inv1
    iintro ⟨⟨⟨⟨%d0, HS0⟩, ⟨%d1, HS1⟩, ⟨%d2, HS2⟩⟩, HR⟩, Hg⟩
    iexists (d0, d1, d2); iframe
    ipureintro; exact fun h0 => absurd rfl h0
  | succ n =>
    show inv1 c (st1 V c n h) ⊢ _; iintro H; iexists (st1 V c n h); iframe
    ipureintro; exact fun _ => rfl

theorem before1 (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨fun d => ?_, fun d => ?_, fun d => ?_⟩ <;>
  exact ((dat1 V c).before_in_eq_fetched _ rfl (fun _ => rfl) (fun _ _ _ => rfl)
    (fun t => by unfold Dat.blockOf; rw [A_eq1]; rfl) t d).trans (by unfold Dat.fetched Dat.blockOf iblk1; rw [A_eq1]; try rfl)

/-- At every position the body is in one of its three cases, from the state before to this position's state. -/
theorem step1_at (c : Dev nD) (t : Fin cfg1.N) (s : St1 F) (hs : ∀ h0 : t.val ≠ 0, s = st1 V c (t.val - 1) (by omega)) (d) :
    ∃ y', (owns (c : Thread nD τ) (st1_3 t) fullShare y' ⊢ ((dat1 V c).leavesExact 3 t : sProp 𝕄))
      ∧ Step1 (grid1.coords t) (iblk1 V c 0 t) (iblk1 V c 1 t) (iblk1 V c 2 t) ((dat1 V c).before 3 t d) y' s (st1 V c t.val t.isLt) := by
  have hl : t.val % 2 = 1 → (owns (c : Thread nD τ) (st1_3 t) fullShare (quot1 (st1 V c t.val t.isLt)) ⊢ ((dat1 V c).leavesExact 3 t : sProp 𝕄)) := fun h => by
    unfold Dat.leavesExact; rw [idle1_3 t, decide_eq_false (by omega : ¬t.val % 2 = 0)]; exact .rfl
  rcases case1 t with ⟨h, hc⟩ | ⟨h, hc⟩ | ⟨h, hc⟩
  · refine ⟨_, ?_, .inl ⟨hc.1, hc.2.1, hc.2.2, (st1_eq V c t).trans (by rw [if_neg (by omega), if_neg (by omega)]), rfl⟩⟩
    rw [Dat.leavesExact_idle (dat1 V c) 3 t ((idle1_3 t).trans (decide_eq_true h)) (noFlush1_3 t h)]
    iintro H; iexists _; iexact H
  · obtain rfl := hs (by omega)
    exact ⟨_, hl (by omega), .inr (.inl ⟨hc.1, hc.2.1, hc.2.2, (st1_eq V c t).trans (if_pos h), rfl⟩)⟩
  · obtain rfl := hs (by omega)
    exact ⟨_, hl (by omega), .inr (.inr ⟨hc.1, hc.2.1, hc.2.2, (st1_eq V c t).trans (by rw [if_neg (by omega), if_pos h]), rfl⟩)⟩

set_option maxHeartbeats 4800000 in
theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl,
    liveAt1 0 (by decide) t,
    show (dat1 V c).Φ t.succ = inv1 c (st1 V c t.val t.isLt) from rfl]
  simp only [(before1 V c t).1, (before1 V c t).2.1, (before1 V c t).2.2]
  change _ ⊢ wp _ _ _ (bodyAt1 t) _
  unfold bodyAt1
  refine (sep_mono_left (Phi1_elim V c t.val (Nat.le_of_lt t.isLt))).trans ?_
  unfold inv1
  iintro ⟨⟨%s, %hs, HS, HR, Hg⟩, Ho, ⟨%d0, H0⟩, ⟨%d1, H1⟩, ⟨%d2, H2⟩, ⟨%d3, H3⟩⟩
  obtain ⟨y', h3, h⟩ := step1_at V c t s hs d3
  iapply (run1 c (grid1.coords t) _ _ _ _ _ _ _ _ _ _ _ _ _ _ _ _ _ _ _ _ _ h Set.univ _)
  unfold bufs1
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  iframe HS HR Hg Ho
  isplitl [H0]; · iexact H0
  isplitl [H1]; · iexact H1
  isplitl [H2]; · iexact H2
  iapply h3; iexact H3

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := by
  refine (Phi1_elim V c (Fin.last cfg1.N).val (Nat.le_of_lt_succ (Fin.last cfg1.N).isLt)).trans ?_
  rw [PhiA1_eq]; unfold inv1
  iintro ⟨%s, -, ⟨HS0, HS1, HS2⟩, HR, Hg⟩
  iframe HR Hg
  isplitl [HS0]; · iexists _; iexact HS0
  isplitl [HS1]; · iexists _; iexact HS1
  iexists _; iexact HS2

end Cert.Kernel.Hand

end
-- ==== Proof.Kernel.Frame2.lean ====
import proofs.«423649_j35837207118382_3_alg».proof.Proof.Kernel.Shape
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2 (i : grid2.Coords) : Prop :=
  (Scalar.cmpi .ne (Scalar.extui (Scalar.cmpi .eq (BitVec.ofNat 32 (i 1).val) 0#32)) 0#32) = 1#1 ∧ k2_cond2 i = 1#1

theorem pt2 : ∀ t : Fin cfg2.N, cond2 (grid2.coords t) ∧ cfg2.idle 6 (grid2.coords t) = false := by decide +kernel

private theorem hz2 : (![0, 0] : Fin 2 → ℕ) = fun _ => 0 := by funext a; fin_cases a <;> rfl

set_option maxHeartbeats 1000000 in
theorem sound_kernel2 (c : Dev nD) (E : Set ℕ) (i : grid2.Coords) (hc : cond2 i)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S512x1024 .f32) (harg8 : arg8.IsWhole) (arg9 : Memref sig .tc .vmem S512x1024 .f32) (harg9 : arg9.IsWhole)
    (x0 : Vec F S512x1024 .bf16) (x1 : Vec F S1024x1024 .bf16) (x2 : Vec F S1x1024 .f32) (x3 : Vec F S512x1024 .f32)
    (x4 x5 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out2 x0 x1 x2 x3 x4 x5) ∗ (∃ d, owns (c : Thread nD τ) arg9 fullShare d)) -∗ K ⟨⟩))
      ⊢ wp frame (wpE (defs₀ (F := F)) Variants.none c none) E
          (cc2__linear_ln_res_kernel i arg2 harg2 arg3 harg3 arg4 harg4 arg5 harg5 arg6 harg6 arg7 harg7 arg8 harg8 arg9 harg9) K := by
  simp only [cc2__linear_ln_res_kernel_eq_skeleton]; unfold cc2__linear_ln_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec (disch := first | exact hc.1 | exact hc.2)
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  isplitr [H7]; swap; · iexists _, _; isplitr; swap; iexact H7; ipureintro; rfl
  iexists _; isplitr; swap; iexact H6
  ipureintro
  rw [View.read_writes_eq_canon _ _ _ (fun y => ⟨_, List.mem_singleton_self _,
    View.mem_set_unit_zero hz2 inb_S512x1024_S512x1024_0_0 y⟩), View.canon_unit_zero hz2]
  sl_unfold_words
  unfold out2 acc2
  rw [View.readCov_cons_toLoadRect, View.readCov_cons_toLoadRect]
  simp only [View.readAt_eq_ld, View.ld_unit_zero (S := S512x1024) hz2, View.ld_unit_zero (S := S1024x1024) hz2,
    View.ld_unit_zero (S := S1x1024) hz2]

theorem A_eq2 (c : Dev nD) (w : Fin cfg2.W) : (dat2 V c).A w = V c (Pipeline.arrRef spec2 w) := by
  dsimp only [dat2]

theorem before2 (c : Dev nD) (t : Fin cfg2.N) (w : Fin cfg2.W) (hw : w ≠ 6) (d) : (dat2 V c).before w t d = (dat2 V c).after w t := by
  rcases (by decide : ∀ w : Fin cfg2.W, w ≠ 6 → w = 0 ∨ w = 1 ∨ w = 2 ∨ w = 3 ∨ w = 4 ∨ w = 5) w hw with rfl | rfl | rfl | rfl | rfl | rfl <;>
    refine Eq.trans (Dat.before_in_eq_fetched (dat2 V c) _ ?_ ?_ ?_ ?_ t d) ?_ <;> intros <;>
    first | (dsimp only [Dat.fetched, Dat.blockOf, dat2]; rfl) | rfl

set_option maxHeartbeats 1000000 in
theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl, (pt2 t).2]
  simp (disch := decide) only [before2 V c t]
  dsimp only [dat2]
  unfold Pipeline.ΦA; rw [scopedRest2_split]
  change _ ⊢ wp _ _ _ (bodyAt2 t) _
  iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) (pt2 t).1 _ _ _ _ _ _ _ _ _ _ _ _ _ _ _ _
    (hb2 V c t) (wb2 V c t) (bb2 V c t) (rb2 V c t) (gb2 V c t) (lb2 V c t) _)
  simp only [owns_whole]
  iframe H0 H1 H2 H3 H4 H5
  isplitl [H6]; · iexists _; iexact H6
  iframe HS
  iintro ⟨H0, H1, H2, H3, H4, H5, H6, HS⟩
  iframe

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.Kernel.Hand

end
-- ==== Proof.Kernel.Frame3.lean ====
import proofs.«423649_j35837207118382_3_alg».proof.Proof.Kernel.Shape
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq3 (c : Dev nD) (w : Fin cfg3.W) : (dat3 V c).A w = V c (Pipeline.arrRef spec3 w) := by
  dsimp only [dat3]

abbrev cond3_0 (i : grid3.Coords) : Prop :=
  (Scalar.cmpi .ne (Scalar.extui (Scalar.cmpi .eq (BitVec.ofNat 32 (i 1).val) 0#32)) 0#32) = 1#1
abbrev cond3_1 (i : grid3.Coords) : Prop := k3_cond2 i = 1#1

theorem hzero3 : (![0, 0] : Fin 2 → Nat) = fun _ => 0 := funext fun a => by fin_cases a <;> rfl

/-- A whole memref owned at `X` is its points-to at the contents that read `X`. -/
theorem owns_unread (c : Thread nD τ) {sp : Space} {sh : Shape} {e : EltTy} {m : Memref sig c.2.kind sp sh e} (h : m.IsWhole)
    (X : sh.Idx → Elt F e) : (owns c m fullShare X : sProp 𝕄) = (m.view.loc c ↦[m.view.set]{fullShare} h.unread X) := by
  have h₁ : (owns c m fullShare X : sProp 𝕄) ⊢ (m.view.loc c ↦[m.view.set]{fullShare} h.unread X) := by
    unfold owns; iintro ⟨%f, %hf, H⟩; obtain rfl := h.eq_unread hf; iexact H
  have h₂ : (m.view.loc c ↦[m.view.set]{fullShare} h.unread X) ⊢ (owns c m fullShare X : sProp 𝕄) := by
    unfold owns; iintro H; iexists _; isplitr; · ipureintro; exact h.read_unread _
    iexact H
  exact BI.equiv_iff.mp ⟨h₁, h₂⟩

/-- By position modulo eight: the two branch conditions, and where the output window is idle. -/
theorem pt3 : ∀ t : Fin cfg3.N, (cond3_0 (grid3.coords t) ↔ t.val % 8 = 0) ∧ (cond3_1 (grid3.coords t) ↔ t.val % 8 = 7)
    ∧ cfg3.idle 7 (grid3.coords t) = decide (t.val % 8 ≠ 7) := by decide +kernel

/-- Every input window holds before the body what it is left at after it. -/
theorem before3 (c : Dev nD) (t : Fin cfg3.N) (w : Fin cfg3.W) (hw : w ≠ 7) (d) : (dat3 V c).before w t d = (dat3 V c).after w t := by
  rcases (by decide : ∀ w : Fin cfg3.W, w ≠ 7 → w = 0 ∨ w = 1 ∨ w = 2 ∨ w = 3 ∨ w = 4 ∨ w = 5 ∨ w = 6) w hw with rfl | rfl | rfl | rfl | rfl | rfl | rfl <;>
    refine Eq.trans (Dat.before_in_eq_fetched (dat3 V c) _ ?_ ?_ ?_ ?_ t d) ?_ <;> intros <;>
    first | (dsimp only [Dat.fetched, Dat.blockOf, dat3]; rfl) | rfl

/-- The accumulator's recursion as one equation. -/
theorem acc3_eq (c : Dev nD) (t : Fin cfg3.N) :
    acc3 V c t.val t.isLt = k3_pay2 (xb3 V c t) (ub3 V c t) (cb3 V c t)
      (if t.val % 8 = 0 then k3_pay1 (F := F) else acc3 V c (t.val - 1) (Nat.lt_of_le_of_lt (Nat.sub_le _ _) t.isLt)) (db3 V c t) := by
  obtain ⟨n, hn⟩ := t
  cases n with
  | zero => rfl
  | succ n =>
    by_cases h : (n + 1) % 8 = 0
    · exact (if_pos h).trans (by rw [if_pos h])
    · exact (if_neg h).trans (by rw [if_neg h]; rfl)

theorem PhiA3_eq (c : Dev nD) :
    (Pipeline.ΦA spec3 c : sProp 𝕄)
      = iprop(iprop(iprop(∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-- Before position `n` the invariant holds the accumulator: at anything when `n = 0`, else at what position `n - 1` left. -/
theorem Phi3_open (c : Dev nD) : ∀ (n : ℕ) (h : n ≤ cfg3.N), Phi3 V c n h ⊢ iprop(∃ xs, ⌜∀ hn : n ≠ 0, xs = acc3 V c (n - 1) (by omega)⌝
      ∗ owns (c : Thread nD τ) scM3_0 fullShare xs ∗ Pipeline.scopedRestBut (Ix := Unit) (Name := ℕ) (U := UR sig nD τ) (Lvl := ℕ) (Val := Elt F) spec3 c [cc3_scratch0] ∗ (∃ r, prngReg c r))
  | 0, _ => by
    rw [Phi3, PhiA3_eq]; iintro ⟨⟨⟨%d, HS⟩, HR⟩, Hg⟩
    iexists d; iframe; ipureintro; exact fun h => absurd rfl h
  | n + 1, h => by
    rw [Phi3]; iintro ⟨HS, HR, Hg⟩
    iexists acc3 V c n h; iframe; ipureintro; exact fun _ => rfl

set_option maxHeartbeats 1000000 in
/-- One run of the body: the accumulator restarts from zero under `p0`, the output block is stored under `p1`. -/
theorem run3 (c : Dev nD) (i : grid3.Coords) (arg2 : Memref sig .tc .vmem S512x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole)
    (p0 p1 : Prop) [Decidable p0] [Decidable p1] (h0 : cond3_0 i ↔ p0) (h1 : cond3_1 i ↔ p1) (h01 : p0 → ¬p1)
    (x0 : Vec F S512x1024 .f32) (x1 : Vec F S1024x512 .bf16) (x2 : Vec F S1x512 .f32) (x3 : Vec F S512x1024 .bf16) (x4 x5 x6 : Vec F S1x1024 .f32) (xo xs : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (if p1 then k3_pay3 (k3_pay2 x0 x1 x2 (if p0 then k3_pay1 (F := F) else xs) x3) x4 x5 x6 x0 else xo)
            ∗ owns (c : Thread nD τ) arg10 fullShare (k3_pay2 x0 x1 x2 (if p0 then k3_pay1 (F := F) else xs) x3)) -∗ K ⟨⟩))
      ⊢ wp frame (wpE (defs₀ (F := F)) Variants.none c none) E (cc3__ffn_kernel i arg2 harg2 arg3 harg3 arg4 harg4 arg5 harg5 arg6 harg6 arg7 harg7 arg8 harg8 arg9 harg9 arg10 harg10) K := by
  simp only [cc3__ffn_kernel_eq_skeleton]; unfold cc3__ffn_kernel_skel
  by_cases hp0 : p0 <;> by_cases hp1 : p1
  · exact absurd hp1 (h01 hp0)
  all_goals
    simp only [hp0, hp1, ↓reduceIte]
    rw [← h0] at hp0; rw [← h1] at hp1
    rw [owns_unread _ harg2 x0, owns_unread _ harg3 x1, owns_unread _ harg4 x2, owns_unread _ harg5 x3, owns_unread _ harg6 x4,
      owns_unread _ harg7 x5, owns_unread _ harg8 x6, owns_unread _ harg9 xo, owns_unread _ harg10 xs]
    iintro ⟨H0, H1, H2, H3, H4, H5, H6, Ho, HS, Hk⟩
    sl_exec (disch := first | exact hp0 | exact hp1)
    sl_step
    iapply Hk
    iframe
    try isplitl [Ho]
    all_goals
      unfold owns; iexists _; isplitr; swap; · iassumption
      ipureintro
      try sl_unfold_words
      refine (View.read_writes_eq_canon _ _ _ (fun y => ⟨_, List.mem_cons_self, View.mem_set_unit_zero hzero3 inb_S512x1024_S512x1024_0_0 y⟩)).trans ?_
      first | rw [View.canon_cons_unit_zero (S := S512x1024) hzero3] | rw [View.canon_unit_zero hzero3]
      simp only [View.readAt_eq_ld, harg2.read_unread, harg3.read_unread, harg4.read_unread, harg5.read_unread, harg6.read_unread, harg7.read_unread, harg8.read_unread, harg10.read_unread, View.ld_unit_zero (S := S512x1024) hzero3, View.ld_unit_zero (S := S1024x512) hzero3, View.ld_unit_zero (S := S1x512) hzero3, View.ld_unit_zero (S := S1x1024) hzero3, View.readCov_unit_zero (S := S512x1024) _ hzero3]

theorem body_obligation3 (c : Dev nD) : BodyObligation (dat3 (F := F) V c) (defs₀ (F := F)) Variants.none () Set.univ := fun t => by
  rw [bigSep_W3, bigSep_W3, show (dat3 V c).owesAt () t.succ = (dat3 V c).owesAt () t.castSucc from rfl, (pt3 t).2.2]
  simp (disch := decide) only [before3 V c t]
  generalize (dat3 V c).before 7 t = B7
  dsimp only [dat3]
  simp only [Fin.coe_castSucc, Fin.val_succ]
  rw [Phi3]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (Phi3_open V c _ _) $$ HΦ with ⟨%xs, %hx, HS, HR, Hg⟩
  have hxs : acc3 V c t.val t.isLt = k3_pay2 (xb3 V c t) (ub3 V c t) (cb3 V c t) (if t.val % 8 = 0 then k3_pay1 (F := F) else xs) (db3 V c t) := by
    rw [acc3_eq]; split
    · rfl
    · rw [hx (by omega)]
  iapply (run3 c (grid3.coords t) _ _ _ _ _ _ _ _ _ _ _ _ _ _ _ _ _ _ (t.val % 8 = 0) (t.val % 8 = 7) (pt3 t).1 (pt3 t).2.1 (by omega)
    (iblk3 V c 0 t) (iblk3 V c 1 t) (iblk3 V c 2 t) (iblk3 V c 3 t) (iblk3 V c 4 t) (iblk3 V c 5 t) (iblk3 V c 6 t) (B7 d7) xs Set.univ _)
  iframe H0 H1 H2 H3 H4 H5 H6 H7 HS
  iintro ⟨H0, H1, H2, H3, H4, H5, H6, H7, HS⟩
  unfold out3; rw [hxs]
  iframe H0 H1 H2 H3 H4 H5 H6 HS HR Hg Ho
  by_cases h7 : t.val % 8 = 7
  · rw [decide_eq_false (not_not_intro h7), if_pos h7]; dsimp only; iexact H7
  · rw [decide_eq_true h7, if_neg h7, show (win3 7).flush t = false from Bool.eq_false_iff.mpr fun hf => h7 ((flush3_7 t).mp hf)]
    dsimp only; iexists _; iexact H7

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := by
  rw [show (dat3 V c).Φ (Fin.last cfg3.N) = Phi3 V c cfg3.N le_rfl from rfl, PhiA3_eq]
  iintro H; icases (Phi3_open V c _ _) $$ H with ⟨%xs, -, HS, HR, Hg⟩
  iframe
  iexists _; iexact HS

end Cert.Kernel.Hand

end
-- ==== Proof.Kernel.Launch.lean ====
import proofs.«423649_j35837207118382_3_alg».proof.Proof.Kernel.Fold
import proofs.«423649_j35837207118382_3_alg».proof.Proof.Kernel.Frame0
import proofs.«423649_j35837207118382_3_alg».proof.Proof.Kernel.Frame1
import proofs.«423649_j35837207118382_3_alg».proof.Proof.Kernel.Frame2
import proofs.«423649_j35837207118382_3_alg».proof.Proof.Kernel.Frame3
import proofs.«423649_j35837207118382_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 4) → (c : Dev nD) → Dat τ (Elt F) Unit ℕ (UR sig nD τ) ℕ (cfgs p) c
  | ⟨0, _⟩ => dat0 (ent0 m)
  | ⟨1, _⟩ => dat1 (ent1 m)
  | ⟨2, _⟩ => dat2 (ent2 m)
  | ⟨3, _⟩ => dat3 (ent3 m)

theorem pdats_triv : ∀ p c, (∀ w, (pdats m p c).q w = fullShare) ∧ (∀ t, (pdats m p c).owed t = 0)
      ∧ (pdats m p c).recorded 0 = Set.univ
  | ⟨0, _⟩, _ | ⟨1, _⟩, _ | ⟨2, _⟩, _ | ⟨3, _⟩, _ => ⟨fun _ => rfl, fun _ => rfl, rfl⟩

/-- The valuation `V` with the arrays of region `p` at their final contents. -/
abbrev exitV (p : Fin 4) (V : Dev nD → Valuation τ sig (Elt F)) (c : Dev nD) : Valuation τ sig (Elt F) :=
  Pipeline.withArrays (cfgs p).spec c (V c) fun w => (pdats m p c).arrAt w (cfgs p).N

theorem exitV_arr (p : Fin 4) (lf : Pipeline.LaunchFacts (nD := nD) (τ := τ) cfgs p) (V : Dev nD → Valuation τ sig (Elt F))
    (c : Dev nD) (w : Fin (cfgs p).W) :
    exitV m p V c (Proc.devRef .tc (Pipeline.arrRef (cfgs p).spec w)) = (pdats m p c).arrAt w (cfgs p).N :=
  Pipeline.withArrays_arr _ lf.win.arr_inj c _ _ w

theorem exitV_ne (p : Fin 4) (V : Dev nD → Valuation τ sig (Elt F)) (c : Dev nD) (b : Ref sig .tc)
    (hb : ∀ w, Pipeline.arrRef (cfgs p).spec w ≠ b) : exitV m p V c (Proc.devRef .tc b) = V c (Proc.devRef .tc b) :=
  Pipeline.withArrays_of_ne _ c _ _ b hb

/-- `exitV p V` is `V` updated at the array of `o`, when `o` is the only output window. -/
theorem upd (p : Fin 4) (lf : Pipeline.LaunchFacts (nD := nD) (τ := τ) cfgs p) (V : Dev nD → Valuation τ sig (Elt F))
    (c : Dev nD) (o : Fin (cfgs p).W) (hi : ∀ w, w ≠ o → ((cfgs p).win w).isOut = false)
    (hA : ∀ w, (pdats m p c).A w = V c (Proc.devRef .tc (Pipeline.arrRef (cfgs p).spec w))) :
    Function.update (V c) (Proc.devRef .tc (Pipeline.arrRef (cfgs p).spec o))
        (exitV m p V c (Proc.devRef .tc (Pipeline.arrRef (cfgs p).spec o))) = exitV m p V c := by
  funext b
  by_cases hb : b = Proc.devRef .tc (Pipeline.arrRef (cfgs p).spec o)
  · subst hb; exact Function.update_self _ _ _
  · rw [Function.update_of_ne hb]
    by_cases h : ∃ w, Proc.devRef .tc (Pipeline.arrRef (cfgs p).spec w) = b
    · obtain ⟨w, rfl⟩ := h
      rw [exitV_arr m p lf, (pdats m p c).arrAt_in w (hi w fun e => hb (by rw [e])), hA]
    · unfold exitV Pipeline.withArrays; rw [dif_neg h]

def outs : Gen.Outs (F := F) := fun n r c =>
  match n with
  | 2 => W2 m c r
  | 4 => W4 m c r
  | 6 => W6 m c r
  | 8 => W8 m c r
  | _ => W1 m c r

theorem V2_eq (c : Dev nD) : Gen.V2 m (outs m) c = W2 m c :=
  upd m 0 Gen.launch0 (W1 m) c 3 (by decide) (A_eq0 (ent0 m) c)
theorem V4_eq (c : Dev nD) : Gen.V4 m (outs m) c = W4 m c := by
  rw [Gen.V4, Gen.V3, V2_eq]; exact upd m 1 Gen.launch1 (W3 m) c 3 (by decide) (A_eq1 (ent1 m) c)
theorem V6_eq (c : Dev nD) : Gen.V6 m (outs m) c = W6 m c := by
  rw [Gen.V6, Gen.V5, V4_eq]; exact upd m 2 Gen.launch2 (W5 m) c 6 (by decide) (A_eq2 (ent2 m) c)
theorem V8_eq (c : Dev nD) : Gen.V8 m (outs m) c = W8 m c := by
  rw [Gen.V8, Gen.V7, V6_eq]; exact upd m 3 Gen.launch3 (W7 m) c 7 (by decide) (A_eq3 (ent3 m) c)

abbrev 𝒱₀ : Variants := Variants.none
abbrev L : GSem nD τ sig → Finset Unit := fun _ => ∅
abbrev lv : GSem nD τ sig → Unit → ℕ := fun _ _ => 0

abbrev rest (c : Dev nD) : sProp 𝕄 :=
  iprop((∃ r, prngReg c r) ∗ ∃ W, owes (c : Thread nD τ) (0 : CellTallies nD τ sig Unit) W)

abbrev at_ (W : Dev nD → Valuation τ sig (Elt F)) (c : Dev nD) : sProp 𝕄 :=
  iprop(StableHlo.held (c : Thread nD τ) (Pipeline.ucRefs τ sig) (W c) ∗ rest c)

theorem eqv {V V' : Valuation τ sig (Elt F)} (h : V = V') {c : Dev nD} {R : sProp 𝕄} :
    iprop(StableHlo.held (c : Thread nD τ) (Pipeline.ucRefs τ sig) V ∗ R)
      ⊢ iprop(StableHlo.held (c : Thread nD τ) (Pipeline.ucRefs τ sig) V' ∗ R) := h ▸ .rfl

set_option backward.isDefEq.respectTransparency.types false in
/-- The record of region `p` from the thread state at `V` to the one at `exitV p V`. -/
def reg (p : Fin 4) (lf : Pipeline.LaunchFacts (nD := nD) (τ := τ) cfgs p) (V : Dev nD → Valuation τ sig (Elt F))
    (hb : ∀ c, BodyObligation (pdats m p c) (defs₀ (F := F)) Variants.none () Set.univ)
    (hA : ∀ c w, (pdats m p c).A w = V c (Proc.devRef .tc (Pipeline.arrRef (cfgs p).spec w)))
    (hI : ∀ c, (Pipeline.ΦA (cfgs p).spec c : sProp 𝕄) ⊢ (pdats m p c).Φ 0)
    (hO : ∀ c, (pdats m p c).Φ (Fin.last (cfgs p).N) ⊢ (Pipeline.ΦA (cfgs p).spec c : sProp 𝕄)) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_triv m p c).2.1
  pre := at_ V
  post := at_ (exitV m p V)
  X c := iprop(∃ r, prngReg c r)
  Y c := iprop(∃ r, prngReg c r)
  Z c := Pipeline.unscopedRest (Ix := Unit) (Name := ℕ) (U := UR sig nD τ) (Lvl := ℕ) (cfgs p).spec c fun b => V c (Proc.devRef .tc b)
  hentry c := by
    obtain ⟨hq, hz, hu⟩ := pdats_triv m p c
    rw [Pipeline.ownSems0_none]
    have hs := Pipeline.arrays_of_unscopedBufs (p := p) (pcfgs (F := F)) Gen.adm (pdats m) lf.win lf.arr_whole c
      ((pdats m p c).share_full hq) (fun b => V c (Proc.devRef .tc b)) (hA c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [hz, hu]
      icases HO with ⟨%W, HO⟩; iexists W; isplitr; · ipureintro; exact fun _ _ => Or.inl trivial
      iexact HO
    isplitl [Hp]; · iexact Hp
    iexact Hrest
  hin c := by
    refine BIBase.Entails.trans ?_ (hI c)
    unfold Pipeline.ΦA
    iintro ⟨Hp, -, Hr⟩
    isplitl [Hr] <;> iassumption
  hout c := by
    rw [Pipeline.ownSems0_none]
    refine BIBase.Entails.trans (hO c) ?_
    unfold Pipeline.ΦA
    iintro ⟨Hr, Hp⟩
    isplitl [Hp]; · iexact Hp
    isplitr; · iempintro
    iexact Hr
  hexit c := by
    obtain ⟨hq, hz, -⟩ := pdats_triv m p c
    have hj := Pipeline.unscopedBufs_of_arrays (p := p) (pcfgs (F := F)) Gen.adm (Ix := Unit) (Name := ℕ) (U := UR sig nD τ) (Lvl := ℕ)
      lf.win lf.arr_whole c (pdats m) ((pdats m p c).share_full hq)
      (fun b => V c (Proc.devRef .tc b)) (fun b => exitV m p V c (Proc.devRef .tc b)) ((pdats m p c).arrAt · (cfgs p).N)
      (fun w => (exitV_arr m p lf V c w).symm)
      fun b hb => exitV_ne m p V c b fun w e => hb (Finset.mem_image.mpr ⟨w, Finset.mem_univ _, e⟩)
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin; rw [hz]
    icases HO with ⟨%W, -, HO⟩; iexists W; iexact HO

def reg0 := reg m 0 Gen.launch0 (W1 m) (body_obligation0 (ent0 m)) (A_eq0 (ent0 m)) (hin0 (ent0 m)) (hout0 (ent0 m))
def reg1 := reg m 1 Gen.launch1 (W3 m) (body_obligation1 (ent1 m)) (A_eq1 (ent1 m)) (hin1 (ent1 m)) (hout1 (ent1 m))
def reg2 := reg m 2 Gen.launch2 (W5 m) (body_obligation2 (ent2 m)) (A_eq2 (ent2 m)) (hin2 (ent2 m)) (hout2 (ent2 m))
def reg3 := reg m 3 Gen.launch3 (W7 m) (body_obligation3 (ent3 m)) (A_eq3 (ent3 m)) (hin3 (ent3 m)) (hout3 (ent3 m))

abbrev E : Fin 5 → Dev nD → sProp 𝕄 := fun _ c => rest c

set_option backward.isDefEq.respectTransparency.types false in
theorem run_result : θ_run defs (onTc (τ := τ) (main (F := F))) ⟨m, fun _ => 0, ρ⟩ (fun r => ∀ c : Dev nD,
      r.2.mem ((c.tc : Thread nD τ).loc main_v33) = W9 m c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) Gen.adm (pdats m) () Gen.cellOf_inj emb₁ defs₀ 𝒱₀ L lv m ρ main
    (Gen.segs m (outs m) 𝒱₀ L lv E () (pdats m) (reg0 m) (reg1 m) (reg2 m) (reg3 m))
    (fun c Q => by rewrite [Gen.main_chain c, Pipeline.Seg.run_eq_chain]; exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (W9 m c))
    (hch := fun c => ⟨.rfl, .rfl, eqv (V2_eq m c).symm, eqv (congrArg _ (V2_eq m c)), eqv (V4_eq m c).symm,
      eqv (congrArg _ (V4_eq m c)), eqv (V6_eq m c).symm, eqv (congrArg _ (V6_eq m c)), eqv (V8_eq m c).symm,
      (eqv (congrArg _ (V8_eq m c))).trans (sep_mono .rfl (by iintro ⟨-, HO⟩; iexact HO))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W9 m c b)
    (hfin := fun c s' => by
      iintro ⟨Hh, HSI⟩
      unfold StableHlo.held
      imodintro
      iapply (pointsTo_read_all (Pipeline.ucRefs τ sig) (fun b => ((c : Thread nD τ).1, b)) (W9 m c) s')
      isplitl [Hh] <;> iassumption)
    (hQ := fun s h c => by
      have u : ∀ b : Ref sig .tc, ¬ (Proc.devRef .tc b : DevRef τ sig).isScoped →
          s.mem ((c.tc : Thread nD τ).loc b) = W9 m c (Proc.devRef .tc b) :=
        fun b hb => h c _ (Finset.mem_filter.mpr ⟨StableHlo.devRef_mem_tcRefs b, hb⟩)
      have a : ∀ b : Ref sig .tc, ¬ (Proc.devRef .tc b : DevRef τ sig).isScoped →
          Gen.V9 m (outs m) c (Proc.devRef .tc b) = m ((c.tc : Thread nD τ).loc b) →
          s.mem ((c.tc : Thread nD τ).loc b) = m ((c.tc : Thread nD τ).loc b) :=
        fun b hb e => (u b hb).trans ((congrFun (congrArg (StableHlo.after Gen.hostOps4) (V8_eq m c)) _).symm.trans e)
      exact ⟨u _ (by decide),
      a _ (by decide) (Gen.V9_main_arg0 m (outs m) c),
      a _ (by decide) (Gen.V9_main_arg1 m (outs m) c),
      a _ (by decide) (Gen.V9_main_arg2 m (outs m) c),
      a _ (by decide) (Gen.V9_main_arg3 m (outs m) c),
      a _ (by decide) (Gen.V9_main_arg4 m (outs m) c),
      a _ (by decide) (Gen.V9_main_arg5 m (outs m) c),
      a _ (by decide) (Gen.V9_main_arg6 m (outs m) c),
      a _ (by decide) (Gen.V9_main_arg7 m (outs m) c),
      a _ (by decide) (Gen.V9_main_arg8 m (outs m) c),
      a _ (by decide) (Gen.V9_main_arg9 m (outs m) c),
      a _ (by decide) (Gen.V9_main_arg10 m (outs m) c)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono (fun _ h c => (h c).2) (run_result m ρ)

end Cert.Kernel.Hand

end
-- ==== Proof.KernelIdeal.Shape.lean ====
import proofs.«423649_j35837207118382_3_alg».proof.Proof.Gen.KernelIdeal.Launch
import proofs.«423649_j35837207118382_3_alg».proof.Proof.Gen.KernelIdeal.Skeleton
import proofs.«423649_j35837207118382_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S1024x1024 .f32 := iblk0 V c 0 t
abbrev wb0 (c : Dev nD) (t : Fin cfg0.N) : Vec F S1024x1024 .bf16 := iblk0 V c 1 t
abbrev bb0 (c : Dev nD) (t : Fin cfg0.N) : Vec F S1x1024 .f32 := iblk0 V c 2 t

def acc0 (x : Vec F S1024x1024 .f32) (w : Vec F S1024x1024 .bf16) : Vec F S1024x1024 .f32 :=
  k0_pay2 x (k0_pay1 (F := F)) w

def out0 (x : Vec F S1024x1024 .f32) (w : Vec F S1024x1024 .bf16) (b : Vec F S1x1024 .f32) : Vec F S1024x1024 .bf16 :=
  k0_pay3 (acc0 x w) b

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (xb0 V c t) (wb0 V c t) (bb0 V c t)
  Φ _ := Pipeline.ΦA spec0 c
  q _ := fullShare
  owed _ := 0

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev qb1 (c : Dev nD) (t : Fin cfg1.N) : Vec F S1x1024x64 .bf16 := iblk1 V c 0 t
abbrev kb1 (c : Dev nD) (t : Fin cfg1.N) : Vec F S1x1024x64 .bf16 := iblk1 V c 1 t
abbrev vb1 (c : Dev nD) (t : Fin cfg1.N) : Vec F S1x1024x64 .bf16 := iblk1 V c 2 t

abbrev qw1 (t : Fin cfg1.N) : BitVec 32 := BitVec.ofNat 32 ((grid1.coords t) 1).val
abbrev kw1 (t : Fin cfg1.N) : BitVec 32 := BitVec.ofNat 32 ((grid1.coords t) 2).val

abbrev St1 (F : FTy → Type) : Type := Vec F S1024x1 .f32 × Vec F S1024x1 .f32 × Vec F S1024x64 .f32

def init1 : St1 F := (k1_pay1 (F := F), k1_pay2 (F := F), k1_pay3 (F := F))

-- One key tile folded into the running maximum, denominator and numerator of a query row.
def fold1 (a1 a2 : BitVec 32) (q k v : Vec F S1x1024x64 .bf16) (s : St1 F) : St1 F :=
  (k1_pay5 (k1_pay8 a1 a2 q k s.1),
   k1_pay11 a1 a2 q k s.1 s.1 s.2.1,
   k1_pay4 (k1_pay9 a1 a2 q k s.1 s.1) (k1_pay10 a1 a2 q k s.1) v s.2.2)

def quot1 (s : St1 F) : Vec F S1x1024x64 .bf16 := k1_pay6 s.2.2 s.2.1

-- The running state after position n: reset and fold at a first key tile, kept above the diagonal, folded at the second tile.
def st1 (c : Dev nD) : (n : ℕ) → n < cfg1.N → St1 F
  | 0, hn => fold1 (qw1 ⟨0, hn⟩) (kw1 ⟨0, hn⟩) (qb1 V c ⟨0, hn⟩) (kb1 V c ⟨0, hn⟩) (vb1 V c ⟨0, hn⟩) init1
  | n + 1, hn =>
    if (n + 1) % 4 = 1 then st1 c n (Nat.lt_of_succ_lt hn)
    else if (n + 1) % 4 = 3 then
      fold1 (qw1 ⟨n + 1, hn⟩) (kw1 ⟨n + 1, hn⟩) (qb1 V c ⟨n + 1, hn⟩) (kb1 V c ⟨n + 1, hn⟩) (vb1 V c ⟨n + 1, hn⟩) (st1 c n (Nat.lt_of_succ_lt hn))
    else
      fold1 (qw1 ⟨n + 1, hn⟩) (kw1 ⟨n + 1, hn⟩) (qb1 V c ⟨n + 1, hn⟩) (kb1 V c ⟨n + 1, hn⟩) (vb1 V c ⟨n + 1, hn⟩) init1

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

def Phi1 (c : Dev nD) : (n : ℕ) → n ≤ cfg1.N → sProp 𝕄
  | 0, _ => Pipeline.ΦA spec1 c
  | n + 1, hn => iprop(iprop(owns (c : Thread nD τ) scM1_0 fullShare (st1 V c n hn).1
        ∗ owns (c : Thread nD τ) scM1_1 fullShare (st1 V c n hn).2.1
        ∗ owns (c : Thread nD τ) scM1_2 fullShare (st1 V c n hn).2.2)
      ∗ Pipeline.scopedRestBut (Ix := Unit) (Name := ℕ) (U := UR sig nD τ) (Lvl := ℕ) (Val := Elt F) spec1 c [cc1_scratch0, cc1_scratch1, cc1_scratch2]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => quot1 (st1 V c t.val t.isLt)
  Φ t := Phi1 V c t.val (Nat.le_of_lt_succ t.isLt)
  q _ := fullShare
  owed _ := 0

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev hb2 (c : Dev nD) (t : Fin cfg2.N) : Vec F S512x1024 .bf16 := iblk2 V c 0 t
abbrev wb2 (c : Dev nD) (t : Fin cfg2.N) : Vec F S1024x1024 .bf16 := iblk2 V c 1 t
abbrev bb2 (c : Dev nD) (t : Fin cfg2.N) : Vec F S1x1024 .f32 := iblk2 V c 2 t
abbrev rb2 (c : Dev nD) (t : Fin cfg2.N) : Vec F S512x1024 .f32 := iblk2 V c 3 t
abbrev gb2 (c : Dev nD) (t : Fin cfg2.N) : Vec F S1x1024 .f32 := iblk2 V c 4 t
abbrev lb2 (c : Dev nD) (t : Fin cfg2.N) : Vec F S1x1024 .f32 := iblk2 V c 5 t

def acc2 (h : Vec F S512x1024 .bf16) (w : Vec F S1024x1024 .bf16) : Vec F S512x1024 .f32 :=
  k2_pay2 h (k2_pay1 (F := F)) w
def out2 (h : Vec F S512x1024 .bf16) (w : Vec F S1024x1024 .bf16) (b : Vec F S1x1024 .f32) (r : Vec F S512x1024 .f32)
    (g : Vec F S1x1024 .f32) (l : Vec F S1x1024 .f32) : Vec F S512x1024 .f32 :=
  k2_pay3 (acc2 h w) b g l r

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (hb2 V c t) (wb2 V c t) (bb2 V c t) (rb2 V c t) (gb2 V c t) (lb2 V c t)
  Φ _ := Pipeline.ΦA spec2 c
  q _ := fullShare
  owed _ := 0

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xb3 (c : Dev nD) (t : Fin cfg3.N) : Vec F S512x1024 .f32 := iblk3 V c 0 t
abbrev ub3 (c : Dev nD) (t : Fin cfg3.N) : Vec F S1024x512 .bf16 := iblk3 V c 1 t
abbrev cb3 (c : Dev nD) (t : Fin cfg3.N) : Vec F S1x512 .f32 := iblk3 V c 2 t
abbrev db3 (c : Dev nD) (t : Fin cfg3.N) : Vec F S512x1024 .bf16 := iblk3 V c 3 t
abbrev eb3 (c : Dev nD) (t : Fin cfg3.N) : Vec F S1x1024 .f32 := iblk3 V c 4 t
abbrev gb3 (c : Dev nD) (t : Fin cfg3.N) : Vec F S1x1024 .f32 := iblk3 V c 5 t
abbrev lb3 (c : Dev nD) (t : Fin cfg3.N) : Vec F S1x1024 .f32 := iblk3 V c 6 t

-- The accumulator after position n: the tile's product added to zero at the first hidden tile, to the previous sum otherwise.
def acc3 (c : Dev nD) : (n : ℕ) → n < cfg3.N → Vec F S512x1024 .f32
  | 0, hn => k3_pay2 (xb3 V c ⟨0, hn⟩) (ub3 V c ⟨0, hn⟩) (cb3 V c ⟨0, hn⟩) (k3_pay1 (F := F)) (db3 V c ⟨0, hn⟩)
  | n + 1, hn =>
    if (n + 1) % 8 = 0 then
      k3_pay2 (xb3 V c ⟨n + 1, hn⟩) (ub3 V c ⟨n + 1, hn⟩) (cb3 V c ⟨n + 1, hn⟩) (k3_pay1 (F := F)) (db3 V c ⟨n + 1, hn⟩)
    else
      k3_pay2 (xb3 V c ⟨n + 1, hn⟩) (ub3 V c ⟨n + 1, hn⟩) (cb3 V c ⟨n + 1, hn⟩) (acc3 c n (Nat.lt_of_succ_lt hn)) (db3 V c ⟨n + 1, hn⟩)

abbrev scM3_0 : Memref sig .tc .vmem S512x1024 .f32 := Memref.whole cc3_scratch0

def Phi3 (c : Dev nD) : (n : ℕ) → n ≤ cfg3.N → sProp 𝕄
  | 0, _ => Pipeline.ΦA spec3 c
  | n + 1, hn => iprop(owns (c : Thread nD τ) scM3_0 fullShare (acc3 V c n hn)
      ∗ Pipeline.scopedRestBut (Ix := Unit) (Name := ℕ) (U := UR sig nD τ) (Lvl := ℕ) (Val := Elt F) spec3 c [cc3_scratch0]
      ∗ (∃ r, prngReg c r))

def out3 (c : Dev nD) (t : Fin cfg3.N) : Vec F S512x1024 .f32 :=
  k3_pay3 (acc3 V c t.val t.isLt) (eb3 V c t) (gb3 V c t) (lb3 V c t) (xb3 V c t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3 V c t
  Φ t := Phi3 V c t.val (Nat.le_of_lt_succ t.isLt)
  q _ := fullShare
  owed _ := 0

end Cert.KernelIdeal.Hand

end
-- ==== Proof.KernelIdeal.Fold.lean ====
import proofs.«423649_j35837207118382_3_alg».proof.Proof.KernelIdeal.Shape
import proofs.«423649_j35837207118382_3_alg».proof.Proof.Gen.KernelIdeal.Regions

noncomputable section

namespace Cert.KernelIdeal.Hand

open Cert.KernelIdeal Cert.KernelIdeal.Gen
open Idealize.ShloMosaic Idealize.ShloMosaic.TcCoe

variable {F : FTy → Type} [FloatOps F] [Named F]

variable (m : (ℓ : Loc nD τ sig) → Buf (Elt F) ℓ)

abbrev W1 (c : Dev nD) : Valuation τ sig (Elt F) := Gen.V1 m c
abbrev ent0 (c : Dev nD) (b : Ref sig .tc) : Buf (Elt F) ((c : Thread nD τ).loc b) := W1 m c (Proc.devRef .tc b)
def W2 (c : Dev nD) : Valuation τ sig (Elt F) :=
  Pipeline.withArrays spec0 c (W1 m c) fun w => (dat0 (ent0 m) c).arrAt w cfg0.N

theorem W2_arr (c : Dev nD) (w : Fin cfg0.W) :
    W2 m c (Proc.devRef .tc (Pipeline.arrRef spec0 w)) = (dat0 (ent0 m) c).arrAt w cfg0.N :=
  Pipeline.withArrays_arr spec0 Gen.launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

abbrev W3 (c : Dev nD) : Valuation τ sig (Elt F) := StableHlo.after Gen.hostOps1 (W2 m c)
abbrev ent1 (c : Dev nD) (b : Ref sig .tc) : Buf (Elt F) ((c : Thread nD τ).loc b) := W3 m c (Proc.devRef .tc b)
def W4 (c : Dev nD) : Valuation τ sig (Elt F) :=
  Pipeline.withArrays spec1 c (W3 m c) fun w => (dat1 (ent1 m) c).arrAt w cfg1.N

theorem W4_arr (c : Dev nD) (w : Fin cfg1.W) :
    W4 m c (Proc.devRef .tc (Pipeline.arrRef spec1 w)) = (dat1 (ent1 m) c).arrAt w cfg1.N :=
  Pipeline.withArrays_arr spec1 Gen.launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb

abbrev W5 (c : Dev nD) : Valuation τ sig (Elt F) := StableHlo.after Gen.hostOps2 (W4 m c)
abbrev ent2 (c : Dev nD) (b : Ref sig .tc) : Buf (Elt F) ((c : Thread nD τ).loc b) := W5 m c (Proc.devRef .tc b)
def W6 (c : Dev nD) : Valuation τ sig (Elt F) :=
  Pipeline.withArrays spec2 c (W5 m c) fun w => (dat2 (ent2 m) c).arrAt w cfg2.N

theorem W6_arr (c : Dev nD) (w : Fin cfg2.W) :
    W6 m c (Proc.devRef .tc (Pipeline.arrRef spec2 w)) = (dat2 (ent2 m) c).arrAt w cfg2.N :=
  Pipeline.withArrays_arr spec2 Gen.launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb

abbrev W7 (c : Dev nD) : Valuation τ sig (Elt F) := StableHlo.after Gen.hostOps3 (W6 m c)
abbrev ent3 (c : Dev nD) (b : Ref sig .tc) : Buf (Elt F) ((c : Thread nD τ).loc b) := W7 m c (Proc.devRef .tc b)
def W8 (c : Dev nD) : Valuation τ sig (Elt F) :=
  Pipeline.withArrays spec3 c (W7 m c) fun w => (dat3 (ent3 m) c).arrAt w cfg3.N

theorem W8_arr (c : Dev nD) (w : Fin cfg3.W) :
    W8 m c (Proc.devRef .tc (Pipeline.arrRef spec3 w)) = (dat3 (ent3 m) c).arrAt w cfg3.N :=
  Pipeline.withArrays_arr spec3 Gen.launch3.win.arr_inj c _ _ w

abbrev W9 (c : Dev nD) : Valuation τ sig (Elt F) := StableHlo.after Gen.hostOps4 (W8 m c)

end Cert.KernelIdeal.Hand

end
-- ==== Proof.KernelIdeal.Frame0.lean ====
import proofs.«423649_j35837207118382_3_alg».proof.Proof.KernelIdeal.Shape
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem pt0 : ∀ t : Fin cfg0.N,
    (Scalar.cmpi .ne (Scalar.extui (Scalar.cmpi .eq (BitVec.ofNat 32 (grid0.coords t 2).val) 0#32)) 0#32) = 1#1
      ∧ k0_cond2 (grid0.coords t) = 1#1 ∧ cfg0.idle 3 (grid0.coords t) = false := by decide +kernel

private theorem hz2 : (![0, 0] : Fin 2 → ℕ) = fun _ => 0 := by funext a; fin_cases a <;> rfl

theorem A_eq0 (c : Dev nD) (w : Fin cfg0.W) : (dat0 V c).A w = V c (Pipeline.arrRef spec0 w) := by
  dsimp only [dat0]

theorem before0 (c : Dev nD) (t : Fin cfg0.N) (w : Fin cfg0.W) (hw : w ≠ 3) (d) : (dat0 V c).before w t d = (dat0 V c).after w t := by
  rcases (by decide : ∀ w : Fin cfg0.W, w ≠ 3 → w = 0 ∨ w = 1 ∨ w = 2) w hw with rfl | rfl | rfl <;>
    refine Eq.trans (Dat.before_in_eq_fetched (dat0 V c) _ ?_ ?_ ?_ ?_ t d) ?_ <;> intros <;>
    first | (dsimp only [Dat.fetched, Dat.blockOf, dat0]; rfl) | rfl

set_option maxHeartbeats 1000000 in
theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl, (pt0 t).2.2]
  simp (disch := decide) only [before0 V c t]
  dsimp only [dat0]
  unfold Pipeline.ΦA; rw [scopedRest0_split]
  change _ ⊢ wp _ _ _ (bodyAt0 t) _
  unfold bodyAt0
  simp only [cc0_kernel_eq_skeleton, ← owns_whole]; unfold cc0_kernel_skel owns
  iintro ⟨⟨⟨⟨%d7, %f7, -, H7⟩, Hrest⟩, Hg⟩, Ho, ⟨%d0, %f3, %hf3, H3⟩, ⟨%d1, %f4, %hf4, H4⟩, ⟨%d2, %f5, %hf5, H5⟩, ⟨%d3, %f6, -, H6⟩⟩
  sl_exec (disch := first | exact (pt0 t).1 | exact (pt0 t).2.1)
  sl_step
  iframe Hrest Hg Ho
  isplitl [H7]; · iexists _, _; isplitr; swap; iexact H7; ipureintro; rfl
  isplitl [H3]; · iexists f3; isplitr; ipureintro; exact hf3; iexact H3
  isplitl [H4]; · iexists f4; isplitr; ipureintro; exact hf4; iexact H4
  isplitl [H5]; · iexists f5; isplitr; ipureintro; exact hf5; iexact H5
  iexists _; isplitr; swap; iexact H6
  ipureintro
  rw [View.read_writes_eq_canon _ _ _ (fun y => ⟨_, List.mem_singleton_self _,
    View.mem_set_unit_zero hz2 inb_S1024x1024_S1024x1024_0_0 y⟩), View.canon_unit_zero hz2]
  sl_unfold_words
  unfold out0 acc0
  rw [View.readCov_cons_toLoadRect, View.readCov_cons_toLoadRect]
  simp only [View.readAt_eq_ld, hf3, hf4, hf5, View.ld_unit_zero (S := S1024x1024) hz2, View.ld_unit_zero (S := S1x1024) hz2]

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.KernelIdeal.Hand

end
-- ==== Proof.KernelIdeal.Frame1.lean ====
import proofs.«423649_j35837207118382_3_alg».proof.Proof.KernelIdeal.Shape
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem A_eq1 (c : Dev nD) (w : Fin cfg1.W) : (dat1 V c).A w = V c (Pipeline.arrRef spec1 w) := rfl

abbrev cond1_0 (i : grid1.Coords) : Prop :=
  (Scalar.cmpi .ne (Scalar.extui (Scalar.cmpi .eq (BitVec.ofNat 32 (i 2).val) 0#32)) 0#32) = 1#1
abbrev cond1_1 (i : grid1.Coords) : Prop :=
  (Scalar.cmpi .ne (Scalar.extui (Scalar.cmpi .sle (BitVec.ofNat 32 (i 2).val) (BitVec.ofNat 32 (i 1).val))) 0#32) = 1#1

/-- The body's three branch conditions over the grid: only three combinations occur, by position modulo 4. -/
theorem case1 : ∀ t : Fin cfg1.N,
    t.val % 2 = 0 ∧ cond1_0 (grid1.coords t) ∧ cond1_1 (grid1.coords t) ∧ ¬k1_cond3 (grid1.coords t) = 1#1
    ∨ t.val % 4 = 1 ∧ ¬cond1_0 (grid1.coords t) ∧ ¬cond1_1 (grid1.coords t) ∧ k1_cond3 (grid1.coords t) = 1#1
    ∨ t.val % 4 = 3 ∧ ¬cond1_0 (grid1.coords t) ∧ cond1_1 (grid1.coords t) ∧ k1_cond3 (grid1.coords t) = 1#1 :=
  (by decide +kernel : ∀ t : Fin grid1.N, _)

theorem idle1_3 : ∀ t : Fin cfg1.N, cfg1.idle 3 (grid1.coords t) = decide (t.val % 2 = 0) :=
  (by decide +kernel : ∀ t : Fin grid1.N, _)
theorem liveAt1 : ∀ w : Fin cfg1.W, w ≠ 3 → ∀ t : Fin cfg1.N, cfg1.idle w (grid1.coords t) = false :=
  (by decide +kernel : ∀ w : Fin 4, w ≠ 3 → ∀ t : Fin grid1.N, _)
theorem noFlush1_3 (t : Fin cfg1.N) (h : t.val % 2 = 0) : (cfg1.win 3).flush t = false :=
  Bool.eq_false_iff.mpr fun hf => absurd ((flush1_3 t).mp hf) (by omega)

theorem hz2a : (![0, 0] : Fin S1024x1.rank → Nat) = fun _ => 0 := funext fun a => by fin_cases a <;> rfl
theorem hz2b : (![0, 0] : Fin S1024x64.rank → Nat) = fun _ => 0 := funext fun a => by fin_cases a <;> rfl
theorem hz3 : (![0, 0, 0] : Fin S1x1024x64.rank → Nat) = fun _ => 0 := funext fun a => by fin_cases a <;> rfl

/-- The last store covers every index, so it hides the earlier stores and the old contents. -/
theorem read_store {sp : Space} {S : Shape} {e : EltTy} (m : Memref sig .tc sp S e) (f : m.view.ty.Contents (Elt F))
    {off : Fin S.rank → Nat} (h : off = fun _ => 0) (inb : ∀ a, off a + S.size a ≤ S.size a) (w : S.Idx → Elt F e)
    (L : List (View.Piece (Elt F) S e)) :
    m.view.read (Elt F) (m.view.writes (Elt F) f (⟨Rect.unit off S.size inb, w⟩ :: L)) = w := by
  rw [View.read_writes_eq_canon _ _ _ (fun y => ⟨_, List.Mem.head _, View.mem_set_unit_zero h inb y⟩), View.canon_cons_unit_zero h]

/-- The body at coordinates `i`, from state `s` and output `y`: reset and fold, or store the quotient, or fold and store it. -/
def Step1 (i : grid1.Coords) (q k v y y' : Vec F S1x1024x64 .bf16) (s s' : St1 F) : Prop :=
  cond1_0 i ∧ cond1_1 i ∧ ¬k1_cond3 i = 1#1 ∧ s' = fold1 (BitVec.ofNat 32 (i 1).val) (BitVec.ofNat 32 (i 2).val) q k v init1 ∧ y' = y
  ∨ ¬cond1_0 i ∧ ¬cond1_1 i ∧ k1_cond3 i = 1#1 ∧ s' = s ∧ y' = quot1 s'
  ∨ ¬cond1_0 i ∧ cond1_1 i ∧ k1_cond3 i = 1#1 ∧ s' = fold1 (BitVec.ofNat 32 (i 1).val) (BitVec.ofNat 32 (i 2).val) q k v s ∧ y' = quot1 s'

section Run

variable (c : Dev nD) (i : grid1.Coords)
  (arg3 : Memref sig .tc .vmem S1x1024x64 .bf16) (harg3 : arg3.IsWhole) (arg4 : Memref sig .tc .vmem S1x1024x64 .bf16) (harg4 : arg4.IsWhole)
  (arg5 : Memref sig .tc .vmem S1x1024x64 .bf16) (harg5 : arg5.IsWhole) (arg6 : Memref sig .tc .vmem S1x1024x64 .bf16) (harg6 : arg6.IsWhole)
  (arg7 : Memref sig .tc .vmem S1024x1 .f32) (harg7 : arg7.IsWhole) (arg8 : Memref sig .tc .vmem S1024x1 .f32) (harg8 : arg8.IsWhole)
  (arg9 : Memref sig .tc .vmem S1024x64 .f32) (harg9 : arg9.IsWhole)

/-- The body's seven buffers: the three input blocks, the output block, the running state. -/
def bufs1 (q k v y : Vec F S1x1024x64 .bf16) (s : St1 F) : sProp 𝕄 :=
  iprop(owns (c : Thread nD τ) arg3 fullShare q ∗ owns (c : Thread nD τ) arg4 fullShare k ∗ owns (c : Thread nD τ) arg5 fullShare v ∗ owns (c : Thread nD τ) arg6 fullShare y
    ∗ owns (c : Thread nD τ) arg7 fullShare s.1 ∗ owns (c : Thread nD τ) arg8 fullShare s.2.1 ∗ owns (c : Thread nD τ) arg9 fullShare s.2.2)

set_option maxHeartbeats 2000000 in
theorem run1 (q k v y y' : Vec F S1x1024x64 .bf16) (s s' : St1 F) (h : Step1 i q k v y y' s s') (E : Set ℕ) (K : PUnit → sProp 𝕄) :
    iprop(bufs1 c arg3 arg4 arg5 arg6 arg7 arg8 arg9 q k v y s ∗ (bufs1 c arg3 arg4 arg5 arg6 arg7 arg8 arg9 q k v y' s' -∗ K ⟨⟩))
      ⊢ wp frame (wpE (defs₀ (F := F)) Variants.none c none) E (cc1_kernel i arg3 harg3 arg4 harg4 arg5 harg5 arg6 harg6 arg7 harg7 arg8 harg8 arg9 harg9) K := by
  rcases h with ⟨hc0, hc1, hc2, rfl, rfl⟩ | ⟨hc0, hc1, hc2, rfl, rfl⟩ | ⟨hc0, hc1, hc2, rfl, rfl⟩ <;>
  · simp only [cc1_kernel_eq_skeleton, k1_part1_eq_skeleton]; unfold cc1_kernel_skel bufs1 owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
    subst hf3 hf4 hf5 hf6
    obtain rfl := harg7.eq_unread hf7; obtain rfl := harg8.eq_unread hf8; obtain rfl := harg9.eq_unread hf9
    sl_exec (disch := first | exact hc0 | exact hc1 | exact hc2)
    sl_step
    iapply Hk
    isplitl [H3]; iexists _; isplitr; swap; iexact H3; ipureintro; rotate_left
    isplitl [H4]; iexists _; isplitr; swap; iexact H4; ipureintro; rotate_left
    isplitl [H5]; iexists _; isplitr; swap; iexact H5; ipureintro; rotate_left
    isplitl [H6]; iexists _; isplitr; swap; iexact H6; ipureintro; rotate_left
    isplitl [H7]; iexists _; isplitr; swap; iexact H7; ipureintro; rotate_left
    isplitl [H8]; iexists _; isplitr; swap; iexact H8; ipureintro; rotate_left
    iexists _; isplitr; swap; iexact H9; ipureintro
    all_goals sl_unfold_words
    all_goals simp only [fold1, init1, quot1, View.readAt_eq_ld,
      Memref.IsWhole.read_unread, View.ld_unit_zero (S := S1x1024x64) hz3, View.ld_unit_zero (S := S1024x1) hz2a,
      View.ld_unit_zero (S := S1024x64) hz2b, View.readCov_unit_zero (S := S1024x1) _ hz2a, View.readCov_unit_zero (S := S1024x64) _ hz2b]
    all_goals first | exact read_store _ _ hz2a _ _ _ | exact read_store _ _ hz3 _ _ _

end Run

theorem st1_eq (c : Dev nD) (t : Fin cfg1.N) : st1 V c t.val t.isLt =
    if t.val % 4 = 1 then st1 V c (t.val - 1) (Nat.lt_of_le_of_lt (Nat.sub_le _ _) t.isLt)
    else fold1 (qw1 t) (kw1 t) (qb1 V c t) (kb1 V c t) (vb1 V c t)
      (if t.val % 4 = 3 then st1 V c (t.val - 1) (Nat.lt_of_le_of_lt (Nat.sub_le _ _) t.isLt) else init1) := by
  obtain ⟨n, hn⟩ := t
  cases n with
  | zero => rfl
  | succ n => dsimp only; rw [st1]; split_ifs <;> rfl

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
            ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2])
        ∗ (∃ r, prngReg c r)) := by
  unfold Pipeline.ΦA; rw [scopedRest1_split]; simp only [scM1_0, scM1_1, scM1_2, owns_whole]; try rfl

/-- The invariant with the three scratch buffers at state `s`. -/
def inv1 (c : Dev nD) (s : St1 F) : sProp 𝕄 :=
  iprop(iprop(owns (c : Thread nD τ) scM1_0 fullShare s.1 ∗ owns (c : Thread nD τ) scM1_1 fullShare s.2.1 ∗ owns (c : Thread nD τ) scM1_2 fullShare s.2.2)
    ∗ Pipeline.scopedRestBut (Ix := Unit) (Name := ℕ) (U := UR sig nD τ) (Lvl := ℕ) (Val := Elt F) spec1 c [cc1_scratch0, cc1_scratch1, cc1_scratch2]
    ∗ (∃ r, prngReg c r))

/-- Before any position the scratch buffers are at some state: the previous position's, if there is one. -/
theorem Phi1_elim (c : Dev nD) (n : ℕ) (h : n ≤ cfg1.N) :
    Phi1 V c n h ⊢ iprop(∃ s : St1 F, ⌜∀ h0 : n ≠ 0, s = st1 V c (n - 1) (by omega)⌝ ∗ inv1 c s) := by
  cases n with
  | zero =>
    show (Pipeline.ΦA spec1 c : sProp 𝕄) ⊢ _
    rw [PhiA1_eq]; unfold inv1
    iintro ⟨⟨⟨⟨%d0, HS0⟩, ⟨%d1, HS1⟩, ⟨%d2, HS2⟩⟩, HR⟩, Hg⟩
    iexists (d0, d1, d2); iframe
    ipureintro; exact fun h0 => absurd rfl h0
  | succ n =>
    show inv1 c (st1 V c n h) ⊢ _; iintro H; iexists (st1 V c n h); iframe
    ipureintro; exact fun _ => rfl

theorem before1 (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨fun d => ?_, fun d => ?_, fun d => ?_⟩ <;>
  exact ((dat1 V c).before_in_eq_fetched _ rfl (fun _ => rfl) (fun _ _ _ => rfl)
    (fun t => by unfold Dat.blockOf; rw [A_eq1]; rfl) t d).trans (by unfold Dat.fetched Dat.blockOf iblk1; rw [A_eq1]; try rfl)

/-- At every position the body is in one of its three cases, from the state before to this position's state. -/
theorem step1_at (c : Dev nD) (t : Fin cfg1.N) (s : St1 F) (hs : ∀ h0 : t.val ≠ 0, s = st1 V c (t.val - 1) (by omega)) (d) :
    ∃ y', (owns (c : Thread nD τ) (st1_3 t) fullShare y' ⊢ ((dat1 V c).leavesExact 3 t : sProp 𝕄))
      ∧ Step1 (grid1.coords t) (iblk1 V c 0 t) (iblk1 V c 1 t) (iblk1 V c 2 t) ((dat1 V c).before 3 t d) y' s (st1 V c t.val t.isLt) := by
  have hl : t.val % 2 = 1 → (owns (c : Thread nD τ) (st1_3 t) fullShare (quot1 (st1 V c t.val t.isLt)) ⊢ ((dat1 V c).leavesExact 3 t : sProp 𝕄)) := fun h => by
    unfold Dat.leavesExact; rw [idle1_3 t, decide_eq_false (by omega : ¬t.val % 2 = 0)]; exact .rfl
  rcases case1 t with ⟨h, hc⟩ | ⟨h, hc⟩ | ⟨h, hc⟩
  · refine ⟨_, ?_, .inl ⟨hc.1, hc.2.1, hc.2.2, (st1_eq V c t).trans (by rw [if_neg (by omega), if_neg (by omega)]), rfl⟩⟩
    rw [Dat.leavesExact_idle (dat1 V c) 3 t ((idle1_3 t).trans (decide_eq_true h)) (noFlush1_3 t h)]
    iintro H; iexists _; iexact H
  · obtain rfl := hs (by omega)
    exact ⟨_, hl (by omega), .inr (.inl ⟨hc.1, hc.2.1, hc.2.2, (st1_eq V c t).trans (if_pos h), rfl⟩)⟩
  · obtain rfl := hs (by omega)
    exact ⟨_, hl (by omega), .inr (.inr ⟨hc.1, hc.2.1, hc.2.2, (st1_eq V c t).trans (by rw [if_neg (by omega), if_pos h]), rfl⟩)⟩

set_option maxHeartbeats 4800000 in
theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl,
    liveAt1 0 (by decide) t,
    show (dat1 V c).Φ t.succ = inv1 c (st1 V c t.val t.isLt) from rfl]
  simp only [(before1 V c t).1, (before1 V c t).2.1, (before1 V c t).2.2]
  change _ ⊢ wp _ _ _ (bodyAt1 t) _
  unfold bodyAt1
  refine (sep_mono_left (Phi1_elim V c t.val (Nat.le_of_lt t.isLt))).trans ?_
  unfold inv1
  iintro ⟨⟨%s, %hs, HS, HR, Hg⟩, Ho, ⟨%d0, H0⟩, ⟨%d1, H1⟩, ⟨%d2, H2⟩, ⟨%d3, H3⟩⟩
  obtain ⟨y', h3, h⟩ := step1_at V c t s hs d3
  iapply (run1 c (grid1.coords t) _ _ _ _ _ _ _ _ _ _ _ _ _ _ _ _ _ _ _ _ _ h Set.univ _)
  unfold bufs1
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  iframe HS HR Hg Ho
  isplitl [H0]; · iexact H0
  isplitl [H1]; · iexact H1
  isplitl [H2]; · iexact H2
  iapply h3; iexact H3

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := by
  refine (Phi1_elim V c (Fin.last cfg1.N).val (Nat.le_of_lt_succ (Fin.last cfg1.N).isLt)).trans ?_
  rw [PhiA1_eq]; unfold inv1
  iintro ⟨%s, -, ⟨HS0, HS1, HS2⟩, HR, Hg⟩
  iframe HR Hg
  isplitl [HS0]; · iexists _; iexact HS0
  isplitl [HS1]; · iexists _; iexact HS1
  iexists _; iexact HS2

end Cert.KernelIdeal.Hand

end
-- ==== Proof.KernelIdeal.Frame2.lean ====
import proofs.«423649_j35837207118382_3_alg».proof.Proof.KernelIdeal.Shape
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev cond2 (i : grid2.Coords) : Prop :=
  (Scalar.cmpi .ne (Scalar.extui (Scalar.cmpi .eq (BitVec.ofNat 32 (i 1).val) 0#32)) 0#32) = 1#1 ∧ k2_cond2 i = 1#1

theorem pt2 : ∀ t : Fin cfg2.N, cond2 (grid2.coords t) ∧ cfg2.idle 6 (grid2.coords t) = false := by decide +kernel

private theorem hz2 : (![0, 0] : Fin 2 → ℕ) = fun _ => 0 := by funext a; fin_cases a <;> rfl

set_option maxHeartbeats 1000000 in
theorem sound_kernel2 (c : Dev nD) (E : Set ℕ) (i : grid2.Coords) (hc : cond2 i)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S512x1024 .f32) (harg8 : arg8.IsWhole) (arg9 : Memref sig .tc .vmem S512x1024 .f32) (harg9 : arg9.IsWhole)
    (x0 : Vec F S512x1024 .bf16) (x1 : Vec F S1024x1024 .bf16) (x2 : Vec F S1x1024 .f32) (x3 : Vec F S512x1024 .f32)
    (x4 x5 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out2 x0 x1 x2 x3 x4 x5) ∗ (∃ d, owns (c : Thread nD τ) arg9 fullShare d)) -∗ K ⟨⟩))
      ⊢ wp frame (wpE (defs₀ (F := F)) Variants.none c none) E
          (cc2__linear_ln_res_kernel i arg2 harg2 arg3 harg3 arg4 harg4 arg5 harg5 arg6 harg6 arg7 harg7 arg8 harg8 arg9 harg9) K := by
  simp only [cc2__linear_ln_res_kernel_eq_skeleton]; unfold cc2__linear_ln_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec (disch := first | exact hc.1 | exact hc.2)
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  isplitr [H7]; swap; · iexists _, _; isplitr; swap; iexact H7; ipureintro; rfl
  iexists _; isplitr; swap; iexact H6
  ipureintro
  rw [View.read_writes_eq_canon _ _ _ (fun y => ⟨_, List.mem_singleton_self _,
    View.mem_set_unit_zero hz2 inb_S512x1024_S512x1024_0_0 y⟩), View.canon_unit_zero hz2]
  sl_unfold_words
  unfold out2 acc2
  rw [View.readCov_cons_toLoadRect, View.readCov_cons_toLoadRect]
  simp only [View.readAt_eq_ld, View.ld_unit_zero (S := S512x1024) hz2, View.ld_unit_zero (S := S1024x1024) hz2,
    View.ld_unit_zero (S := S1x1024) hz2]

theorem A_eq2 (c : Dev nD) (w : Fin cfg2.W) : (dat2 V c).A w = V c (Pipeline.arrRef spec2 w) := by
  dsimp only [dat2]

theorem before2 (c : Dev nD) (t : Fin cfg2.N) (w : Fin cfg2.W) (hw : w ≠ 6) (d) : (dat2 V c).before w t d = (dat2 V c).after w t := by
  rcases (by decide : ∀ w : Fin cfg2.W, w ≠ 6 → w = 0 ∨ w = 1 ∨ w = 2 ∨ w = 3 ∨ w = 4 ∨ w = 5) w hw with rfl | rfl | rfl | rfl | rfl | rfl <;>
    refine Eq.trans (Dat.before_in_eq_fetched (dat2 V c) _ ?_ ?_ ?_ ?_ t d) ?_ <;> intros <;>
    first | (dsimp only [Dat.fetched, Dat.blockOf, dat2]; rfl) | rfl

set_option maxHeartbeats 1000000 in
theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl, (pt2 t).2]
  simp (disch := decide) only [before2 V c t]
  dsimp only [dat2]
  unfold Pipeline.ΦA; rw [scopedRest2_split]
  change _ ⊢ wp _ _ _ (bodyAt2 t) _
  iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) (pt2 t).1 _ _ _ _ _ _ _ _ _ _ _ _ _ _ _ _
    (hb2 V c t) (wb2 V c t) (bb2 V c t) (rb2 V c t) (gb2 V c t) (lb2 V c t) _)
  simp only [owns_whole]
  iframe H0 H1 H2 H3 H4 H5
  isplitl [H6]; · iexists _; iexact H6
  iframe HS
  iintro ⟨H0, H1, H2, H3, H4, H5, H6, HS⟩
  iframe

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.KernelIdeal.Hand

end
-- ==== Proof.KernelIdeal.Frame3.lean ====
import proofs.«423649_j35837207118382_3_alg».proof.Proof.KernelIdeal.Shape
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem A_eq3 (c : Dev nD) (w : Fin cfg3.W) : (dat3 V c).A w = V c (Pipeline.arrRef spec3 w) := by
  dsimp only [dat3]

abbrev cond3_0 (i : grid3.Coords) : Prop :=
  (Scalar.cmpi .ne (Scalar.extui (Scalar.cmpi .eq (BitVec.ofNat 32 (i 1).val) 0#32)) 0#32) = 1#1
abbrev cond3_1 (i : grid3.Coords) : Prop := k3_cond2 i = 1#1

theorem hzero3 : (![0, 0] : Fin 2 → Nat) = fun _ => 0 := funext fun a => by fin_cases a <;> rfl

/-- A whole memref owned at `X` is its points-to at the contents that read `X`. -/
theorem owns_unread (c : Thread nD τ) {sp : Space} {sh : Shape} {e : EltTy} {m : Memref sig c.2.kind sp sh e} (h : m.IsWhole)
    (X : sh.Idx → Elt F e) : (owns c m fullShare X : sProp 𝕄) = (m.view.loc c ↦[m.view.set]{fullShare} h.unread X) := by
  have h₁ : (owns c m fullShare X : sProp 𝕄) ⊢ (m.view.loc c ↦[m.view.set]{fullShare} h.unread X) := by
    unfold owns; iintro ⟨%f, %hf, H⟩; obtain rfl := h.eq_unread hf; iexact H
  have h₂ : (m.view.loc c ↦[m.view.set]{fullShare} h.unread X) ⊢ (owns c m fullShare X : sProp 𝕄) := by
    unfold owns; iintro H; iexists _; isplitr; · ipureintro; exact h.read_unread _
    iexact H
  exact BI.equiv_iff.mp ⟨h₁, h₂⟩

/-- By position modulo eight: the two branch conditions, and where the output window is idle. -/
theorem pt3 : ∀ t : Fin cfg3.N, (cond3_0 (grid3.coords t) ↔ t.val % 8 = 0) ∧ (cond3_1 (grid3.coords t) ↔ t.val % 8 = 7)
    ∧ cfg3.idle 7 (grid3.coords t) = decide (t.val % 8 ≠ 7) := by decide +kernel

/-- Every input window holds before the body what it is left at after it. -/
theorem before3 (c : Dev nD) (t : Fin cfg3.N) (w : Fin cfg3.W) (hw : w ≠ 7) (d) : (dat3 V c).before w t d = (dat3 V c).after w t := by
  rcases (by decide : ∀ w : Fin cfg3.W, w ≠ 7 → w = 0 ∨ w = 1 ∨ w = 2 ∨ w = 3 ∨ w = 4 ∨ w = 5 ∨ w = 6) w hw with rfl | rfl | rfl | rfl | rfl | rfl | rfl <;>
    refine Eq.trans (Dat.before_in_eq_fetched (dat3 V c) _ ?_ ?_ ?_ ?_ t d) ?_ <;> intros <;>
    first | (dsimp only [Dat.fetched, Dat.blockOf, dat3]; rfl) | rfl

/-- The accumulator's recursion as one equation. -/
theorem acc3_eq (c : Dev nD) (t : Fin cfg3.N) :
    acc3 V c t.val t.isLt = k3_pay2 (xb3 V c t) (ub3 V c t) (cb3 V c t)
      (if t.val % 8 = 0 then k3_pay1 (F := F) else acc3 V c (t.val - 1) (Nat.lt_of_le_of_lt (Nat.sub_le _ _) t.isLt)) (db3 V c t) := by
  obtain ⟨n, hn⟩ := t
  cases n with
  | zero => rfl
  | succ n =>
    by_cases h : (n + 1) % 8 = 0
    · exact (if_pos h).trans (by rw [if_pos h])
    · exact (if_neg h).trans (by rw [if_neg h]; rfl)

theorem PhiA3_eq (c : Dev nD) :
    (Pipeline.ΦA spec3 c : sProp 𝕄)
      = iprop(iprop(iprop(∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-- Before position `n` the invariant holds the accumulator: at anything when `n = 0`, else at what position `n - 1` left. -/
theorem Phi3_open (c : Dev nD) : ∀ (n : ℕ) (h : n ≤ cfg3.N), Phi3 V c n h ⊢ iprop(∃ xs, ⌜∀ hn : n ≠ 0, xs = acc3 V c (n - 1) (by omega)⌝
      ∗ owns (c : Thread nD τ) scM3_0 fullShare xs ∗ Pipeline.scopedRestBut (Ix := Unit) (Name := ℕ) (U := UR sig nD τ) (Lvl := ℕ) (Val := Elt F) spec3 c [cc3_scratch0] ∗ (∃ r, prngReg c r))
  | 0, _ => by
    rw [Phi3, PhiA3_eq]; iintro ⟨⟨⟨%d, HS⟩, HR⟩, Hg⟩
    iexists d; iframe; ipureintro; exact fun h => absurd rfl h
  | n + 1, h => by
    rw [Phi3]; iintro ⟨HS, HR, Hg⟩
    iexists acc3 V c n h; iframe; ipureintro; exact fun _ => rfl

set_option maxHeartbeats 1000000 in
/-- One run of the body: the accumulator restarts from zero under `p0`, the output block is stored under `p1`. -/
theorem run3 (c : Dev nD) (i : grid3.Coords) (arg2 : Memref sig .tc .vmem S512x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole)
    (p0 p1 : Prop) [Decidable p0] [Decidable p1] (h0 : cond3_0 i ↔ p0) (h1 : cond3_1 i ↔ p1) (h01 : p0 → ¬p1)
    (x0 : Vec F S512x1024 .f32) (x1 : Vec F S1024x512 .bf16) (x2 : Vec F S1x512 .f32) (x3 : Vec F S512x1024 .bf16) (x4 x5 x6 : Vec F S1x1024 .f32) (xo xs : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (if p1 then k3_pay3 (k3_pay2 x0 x1 x2 (if p0 then k3_pay1 (F := F) else xs) x3) x4 x5 x6 x0 else xo)
            ∗ owns (c : Thread nD τ) arg10 fullShare (k3_pay2 x0 x1 x2 (if p0 then k3_pay1 (F := F) else xs) x3)) -∗ K ⟨⟩))
      ⊢ wp frame (wpE (defs₀ (F := F)) Variants.none c none) E (cc3__ffn_kernel i arg2 harg2 arg3 harg3 arg4 harg4 arg5 harg5 arg6 harg6 arg7 harg7 arg8 harg8 arg9 harg9 arg10 harg10) K := by
  simp only [cc3__ffn_kernel_eq_skeleton]; unfold cc3__ffn_kernel_skel
  by_cases hp0 : p0 <;> by_cases hp1 : p1
  · exact absurd hp1 (h01 hp0)
  all_goals
    simp only [hp0, hp1, ↓reduceIte]
    rw [← h0] at hp0; rw [← h1] at hp1
    rw [owns_unread _ harg2 x0, owns_unread _ harg3 x1, owns_unread _ harg4 x2, owns_unread _ harg5 x3, owns_unread _ harg6 x4,
      owns_unread _ harg7 x5, owns_unread _ harg8 x6, owns_unread _ harg9 xo, owns_unread _ harg10 xs]
    iintro ⟨H0, H1, H2, H3, H4, H5, H6, Ho, HS, Hk⟩
    sl_exec (disch := first | exact hp0 | exact hp1)
    sl_step
    iapply Hk
    iframe
    try isplitl [Ho]
    all_goals
      unfold owns; iexists _; isplitr; swap; · iassumption
      ipureintro
      try sl_unfold_words
      refine (View.read_writes_eq_canon _ _ _ (fun y => ⟨_, List.mem_cons_self, View.mem_set_unit_zero hzero3 inb_S512x1024_S512x1024_0_0 y⟩)).trans ?_
      first | rw [View.canon_cons_unit_zero (S := S512x1024) hzero3] | rw [View.canon_unit_zero hzero3]
      simp only [View.readAt_eq_ld, harg2.read_unread, harg3.read_unread, harg4.read_unread, harg5.read_unread, harg6.read_unread, harg7.read_unread, harg8.read_unread, harg10.read_unread, View.ld_unit_zero (S := S512x1024) hzero3, View.ld_unit_zero (S := S1024x512) hzero3, View.ld_unit_zero (S := S1x512) hzero3, View.ld_unit_zero (S := S1x1024) hzero3, View.readCov_unit_zero (S := S512x1024) _ hzero3]

theorem body_obligation3 (c : Dev nD) : BodyObligation (dat3 (F := F) V c) (defs₀ (F := F)) Variants.none () Set.univ := fun t => by
  rw [bigSep_W3, bigSep_W3, show (dat3 V c).owesAt () t.succ = (dat3 V c).owesAt () t.castSucc from rfl, (pt3 t).2.2]
  simp (disch := decide) only [before3 V c t]
  generalize (dat3 V c).before 7 t = B7
  dsimp only [dat3]
  simp only [Fin.coe_castSucc, Fin.val_succ]
  rw [Phi3]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (Phi3_open V c _ _) $$ HΦ with ⟨%xs, %hx, HS, HR, Hg⟩
  have hxs : acc3 V c t.val t.isLt = k3_pay2 (xb3 V c t) (ub3 V c t) (cb3 V c t) (if t.val % 8 = 0 then k3_pay1 (F := F) else xs) (db3 V c t) := by
    rw [acc3_eq]; split
    · rfl
    · rw [hx (by omega)]
  iapply (run3 c (grid3.coords t) _ _ _ _ _ _ _ _ _ _ _ _ _ _ _ _ _ _ (t.val % 8 = 0) (t.val % 8 = 7) (pt3 t).1 (pt3 t).2.1 (by omega)
    (iblk3 V c 0 t) (iblk3 V c 1 t) (iblk3 V c 2 t) (iblk3 V c 3 t) (iblk3 V c 4 t) (iblk3 V c 5 t) (iblk3 V c 6 t) (B7 d7) xs Set.univ _)
  iframe H0 H1 H2 H3 H4 H5 H6 H7 HS
  iintro ⟨H0, H1, H2, H3, H4, H5, H6, H7, HS⟩
  unfold out3; rw [hxs]
  iframe H0 H1 H2 H3 H4 H5 H6 HS HR Hg Ho
  by_cases h7 : t.val % 8 = 7
  · rw [decide_eq_false (not_not_intro h7), if_pos h7]; dsimp only; iexact H7
  · rw [decide_eq_true h7, if_neg h7, show (win3 7).flush t = false from Bool.eq_false_iff.mpr fun hf => h7 ((flush3_7 t).mp hf)]
    dsimp only; iexists _; iexact H7

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := by
  rw [show (dat3 V c).Φ (Fin.last cfg3.N) = Phi3 V c cfg3.N le_rfl from rfl, PhiA3_eq]
  iintro H; icases (Phi3_open V c _ _) $$ H with ⟨%xs, -, HS, HR, Hg⟩
  iframe
  iexists _; iexact HS

end Cert.KernelIdeal.Hand

end
-- ==== Proof.KernelIdeal.Launch.lean ====
import proofs.«423649_j35837207118382_3_alg».proof.Proof.KernelIdeal.Fold
import proofs.«423649_j35837207118382_3_alg».proof.Proof.KernelIdeal.Frame0
import proofs.«423649_j35837207118382_3_alg».proof.Proof.KernelIdeal.Frame1
import proofs.«423649_j35837207118382_3_alg».proof.Proof.KernelIdeal.Frame2
import proofs.«423649_j35837207118382_3_alg».proof.Proof.KernelIdeal.Frame3
import proofs.«423649_j35837207118382_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def pdats : (p : Fin 4) → (c : Dev nD) → Dat τ (Elt F) Unit ℕ (UR sig nD τ) ℕ (cfgs p) c
  | ⟨0, _⟩ => dat0 (ent0 m)
  | ⟨1, _⟩ => dat1 (ent1 m)
  | ⟨2, _⟩ => dat2 (ent2 m)
  | ⟨3, _⟩ => dat3 (ent3 m)

theorem pdats_triv : ∀ p c, (∀ w, (pdats m p c).q w = fullShare) ∧ (∀ t, (pdats m p c).owed t = 0)
      ∧ (pdats m p c).recorded 0 = Set.univ
  | ⟨0, _⟩, _ | ⟨1, _⟩, _ | ⟨2, _⟩, _ | ⟨3, _⟩, _ => ⟨fun _ => rfl, fun _ => rfl, rfl⟩

/-- The valuation `V` with the arrays of region `p` at their final contents. -/
abbrev exitV (p : Fin 4) (V : Dev nD → Valuation τ sig (Elt F)) (c : Dev nD) : Valuation τ sig (Elt F) :=
  Pipeline.withArrays (cfgs p).spec c (V c) fun w => (pdats m p c).arrAt w (cfgs p).N

theorem exitV_arr (p : Fin 4) (lf : Pipeline.LaunchFacts (nD := nD) (τ := τ) cfgs p) (V : Dev nD → Valuation τ sig (Elt F))
    (c : Dev nD) (w : Fin (cfgs p).W) :
    exitV m p V c (Proc.devRef .tc (Pipeline.arrRef (cfgs p).spec w)) = (pdats m p c).arrAt w (cfgs p).N :=
  Pipeline.withArrays_arr _ lf.win.arr_inj c _ _ w

theorem exitV_ne (p : Fin 4) (V : Dev nD → Valuation τ sig (Elt F)) (c : Dev nD) (b : Ref sig .tc)
    (hb : ∀ w, Pipeline.arrRef (cfgs p).spec w ≠ b) : exitV m p V c (Proc.devRef .tc b) = V c (Proc.devRef .tc b) :=
  Pipeline.withArrays_of_ne _ c _ _ b hb

/-- `exitV p V` is `V` updated at the array of `o`, when `o` is the only output window. -/
theorem upd (p : Fin 4) (lf : Pipeline.LaunchFacts (nD := nD) (τ := τ) cfgs p) (V : Dev nD → Valuation τ sig (Elt F))
    (c : Dev nD) (o : Fin (cfgs p).W) (hi : ∀ w, w ≠ o → ((cfgs p).win w).isOut = false)
    (hA : ∀ w, (pdats m p c).A w = V c (Proc.devRef .tc (Pipeline.arrRef (cfgs p).spec w))) :
    Function.update (V c) (Proc.devRef .tc (Pipeline.arrRef (cfgs p).spec o))
        (exitV m p V c (Proc.devRef .tc (Pipeline.arrRef (cfgs p).spec o))) = exitV m p V c := by
  funext b
  by_cases hb : b = Proc.devRef .tc (Pipeline.arrRef (cfgs p).spec o)
  · subst hb; exact Function.update_self _ _ _
  · rw [Function.update_of_ne hb]
    by_cases h : ∃ w, Proc.devRef .tc (Pipeline.arrRef (cfgs p).spec w) = b
    · obtain ⟨w, rfl⟩ := h
      rw [exitV_arr m p lf, (pdats m p c).arrAt_in w (hi w fun e => hb (by rw [e])), hA]
    · unfold exitV Pipeline.withArrays; rw [dif_neg h]

def outs : Gen.Outs (F := F) := fun n r c =>
  match n with
  | 2 => W2 m c r
  | 4 => W4 m c r
  | 6 => W6 m c r
  | 8 => W8 m c r
  | _ => W1 m c r

theorem V2_eq (c : Dev nD) : Gen.V2 m (outs m) c = W2 m c :=
  upd m 0 Gen.launch0 (W1 m) c 3 (by decide) (A_eq0 (ent0 m) c)
theorem V4_eq (c : Dev nD) : Gen.V4 m (outs m) c = W4 m c := by
  rw [Gen.V4, Gen.V3, V2_eq]; exact upd m 1 Gen.launch1 (W3 m) c 3 (by decide) (A_eq1 (ent1 m) c)
theorem V6_eq (c : Dev nD) : Gen.V6 m (outs m) c = W6 m c := by
  rw [Gen.V6, Gen.V5, V4_eq]; exact upd m 2 Gen.launch2 (W5 m) c 6 (by decide) (A_eq2 (ent2 m) c)
theorem V8_eq (c : Dev nD) : Gen.V8 m (outs m) c = W8 m c := by
  rw [Gen.V8, Gen.V7, V6_eq]; exact upd m 3 Gen.launch3 (W7 m) c 7 (by decide) (A_eq3 (ent3 m) c)

abbrev 𝒱₀ : Variants := Variants.none
abbrev L : GSem nD τ sig → Finset Unit := fun _ => ∅
abbrev lv : GSem nD τ sig → Unit → ℕ := fun _ _ => 0

abbrev rest (c : Dev nD) : sProp 𝕄 :=
  iprop((∃ r, prngReg c r) ∗ ∃ W, owes (c : Thread nD τ) (0 : CellTallies nD τ sig Unit) W)

abbrev at_ (W : Dev nD → Valuation τ sig (Elt F)) (c : Dev nD) : sProp 𝕄 :=
  iprop(StableHlo.held (c : Thread nD τ) (Pipeline.ucRefs τ sig) (W c) ∗ rest c)

theorem eqv {V V' : Valuation τ sig (Elt F)} (h : V = V') {c : Dev nD} {R : sProp 𝕄} :
    iprop(StableHlo.held (c : Thread nD τ) (Pipeline.ucRefs τ sig) V ∗ R)
      ⊢ iprop(StableHlo.held (c : Thread nD τ) (Pipeline.ucRefs τ sig) V' ∗ R) := h ▸ .rfl

set_option backward.isDefEq.respectTransparency.types false in
/-- The record of region `p` from the thread state at `V` to the one at `exitV p V`. -/
def reg (p : Fin 4) (lf : Pipeline.LaunchFacts (nD := nD) (τ := τ) cfgs p) (V : Dev nD → Valuation τ sig (Elt F))
    (hb : ∀ c, BodyObligation (pdats m p c) (defs₀ (F := F)) Variants.none () Set.univ)
    (hA : ∀ c w, (pdats m p c).A w = V c (Proc.devRef .tc (Pipeline.arrRef (cfgs p).spec w)))
    (hI : ∀ c, (Pipeline.ΦA (cfgs p).spec c : sProp 𝕄) ⊢ (pdats m p c).Φ 0)
    (hO : ∀ c, (pdats m p c).Φ (Fin.last (cfgs p).N) ⊢ (Pipeline.ΦA (cfgs p).spec c : sProp 𝕄)) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_triv m p c).2.1
  pre := at_ V
  post := at_ (exitV m p V)
  X c := iprop(∃ r, prngReg c r)
  Y c := iprop(∃ r, prngReg c r)
  Z c := Pipeline.unscopedRest (Ix := Unit) (Name := ℕ) (U := UR sig nD τ) (Lvl := ℕ) (cfgs p).spec c fun b => V c (Proc.devRef .tc b)
  hentry c := by
    obtain ⟨hq, hz, hu⟩ := pdats_triv m p c
    rw [Pipeline.ownSems0_none]
    have hs := Pipeline.arrays_of_unscopedBufs (p := p) (pcfgs (F := F)) Gen.adm (pdats m) lf.win lf.arr_whole c
      ((pdats m p c).share_full hq) (fun b => V c (Proc.devRef .tc b)) (hA c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [hz, hu]
      icases HO with ⟨%W, HO⟩; iexists W; isplitr; · ipureintro; exact fun _ _ => Or.inl trivial
      iexact HO
    isplitl [Hp]; · iexact Hp
    iexact Hrest
  hin c := by
    refine BIBase.Entails.trans ?_ (hI c)
    unfold Pipeline.ΦA
    iintro ⟨Hp, -, Hr⟩
    isplitl [Hr] <;> iassumption
  hout c := by
    rw [Pipeline.ownSems0_none]
    refine BIBase.Entails.trans (hO c) ?_
    unfold Pipeline.ΦA
    iintro ⟨Hr, Hp⟩
    isplitl [Hp]; · iexact Hp
    isplitr; · iempintro
    iexact Hr
  hexit c := by
    obtain ⟨hq, hz, -⟩ := pdats_triv m p c
    have hj := Pipeline.unscopedBufs_of_arrays (p := p) (pcfgs (F := F)) Gen.adm (Ix := Unit) (Name := ℕ) (U := UR sig nD τ) (Lvl := ℕ)
      lf.win lf.arr_whole c (pdats m) ((pdats m p c).share_full hq)
      (fun b => V c (Proc.devRef .tc b)) (fun b => exitV m p V c (Proc.devRef .tc b)) ((pdats m p c).arrAt · (cfgs p).N)
      (fun w => (exitV_arr m p lf V c w).symm)
      fun b hb => exitV_ne m p V c b fun w e => hb (Finset.mem_image.mpr ⟨w, Finset.mem_univ _, e⟩)
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin; rw [hz]
    icases HO with ⟨%W, -, HO⟩; iexists W; iexact HO

def reg0 := reg m 0 Gen.launch0 (W1 m) (body_obligation0 (ent0 m)) (A_eq0 (ent0 m)) (hin0 (ent0 m)) (hout0 (ent0 m))
def reg1 := reg m 1 Gen.launch1 (W3 m) (body_obligation1 (ent1 m)) (A_eq1 (ent1 m)) (hin1 (ent1 m)) (hout1 (ent1 m))
def reg2 := reg m 2 Gen.launch2 (W5 m) (body_obligation2 (ent2 m)) (A_eq2 (ent2 m)) (hin2 (ent2 m)) (hout2 (ent2 m))
def reg3 := reg m 3 Gen.launch3 (W7 m) (body_obligation3 (ent3 m)) (A_eq3 (ent3 m)) (hin3 (ent3 m)) (hout3 (ent3 m))

abbrev E : Fin 5 → Dev nD → sProp 𝕄 := fun _ c => rest c

set_option backward.isDefEq.respectTransparency.types false in
theorem run_result : θ_run defs (onTc (τ := τ) (main (F := F))) ⟨m, fun _ => 0, ρ⟩ (fun r => ∀ c : Dev nD,
      r.2.mem ((c.tc : Thread nD τ).loc main_v33) = W9 m c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) Gen.adm (pdats m) () Gen.cellOf_inj emb₁ defs₀ 𝒱₀ L lv m ρ main
    (Gen.segs m (outs m) 𝒱₀ L lv E () (pdats m) (reg0 m) (reg1 m) (reg2 m) (reg3 m))
    (fun c Q => by rewrite [Gen.main_chain c, Pipeline.Seg.run_eq_chain]; exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (W9 m c))
    (hch := fun c => ⟨.rfl, .rfl, eqv (V2_eq m c).symm, eqv (congrArg _ (V2_eq m c)), eqv (V4_eq m c).symm,
      eqv (congrArg _ (V4_eq m c)), eqv (V6_eq m c).symm, eqv (congrArg _ (V6_eq m c)), eqv (V8_eq m c).symm,
      (eqv (congrArg _ (V8_eq m c))).trans (sep_mono .rfl (by iintro ⟨-, HO⟩; iexact HO))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W9 m c b)
    (hfin := fun c s' => by
      iintro ⟨Hh, HSI⟩
      unfold StableHlo.held
      imodintro
      iapply (pointsTo_read_all (Pipeline.ucRefs τ sig) (fun b => ((c : Thread nD τ).1, b)) (W9 m c) s')
      isplitl [Hh] <;> iassumption)
    (hQ := fun s h c => by
      have u : ∀ b : Ref sig .tc, ¬ (Proc.devRef .tc b : DevRef τ sig).isScoped →
          s.mem ((c.tc : Thread nD τ).loc b) = W9 m c (Proc.devRef .tc b) :=
        fun b hb => h c _ (Finset.mem_filter.mpr ⟨StableHlo.devRef_mem_tcRefs b, hb⟩)
      have a : ∀ b : Ref sig .tc, ¬ (Proc.devRef .tc b : DevRef τ sig).isScoped →
          Gen.V9 m (outs m) c (Proc.devRef .tc b) = m ((c.tc : Thread nD τ).loc b) →
          s.mem ((c.tc : Thread nD τ).loc b) = m ((c.tc : Thread nD τ).loc b) :=
        fun b hb e => (u b hb).trans ((congrFun (congrArg (StableHlo.after Gen.hostOps4) (V8_eq m c)) _).symm.trans e)
      exact ⟨u _ (by decide),
      a _ (by decide) (Gen.V9_main_arg0 m (outs m) c),
      a _ (by decide) (Gen.V9_main_arg1 m (outs m) c),
      a _ (by decide) (Gen.V9_main_arg2 m (outs m) c),
      a _ (by decide) (Gen.V9_main_arg3 m (outs m) c),
      a _ (by decide) (Gen.V9_main_arg4 m (outs m) c),
      a _ (by decide) (Gen.V9_main_arg5 m (outs m) c),
      a _ (by decide) (Gen.V9_main_arg6 m (outs m) c),
      a _ (by decide) (Gen.V9_main_arg7 m (outs m) c),
      a _ (by decide) (Gen.V9_main_arg8 m (outs m) c),
      a _ (by decide) (Gen.V9_main_arg9 m (outs m) c),
      a _ (by decide) (Gen.V9_main_arg10 m (outs m) c)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono (fun _ h c => (h c).2) (run_result m ρ)

end Cert.KernelIdeal.Hand

end
-- ==== Proof.Spec.lean ====
import Idealize.ShloMosaic.PureOps.Ideal

noncomputable section

open scoped BigOperators

namespace Cert.Spec

open Idealize.ShloMosaic

def dot {n : ℕ} (u v : Fin n → EReal) : EReal := ∑ k, u k * v k

def c1024 : EReal := Ideal.ofBits .f32 0x44800000#32
def cEps : EReal := Ideal.ofBits .f32 0x358637BD#32
def c64 : EReal := Ideal.ofBits .f32 0x42800000#32
def cEighth : EReal := Ideal.ofBits .f32 0x3E000000#32

def mean (y : Fin 1024 → EReal) : EReal := Ideal.div (∑ k, y k) c1024

def var (y : Fin 1024 → EReal) : EReal := Ideal.div (∑ k, (y k - mean y) * (y k - mean y)) c1024

def lnRow (y g b : Fin 1024 → EReal) : Fin 1024 → EReal :=
  fun e => (y e - mean y) * Ideal.rsqrt (var y + cEps) * g e + b e

def score (q : Fin 64 → EReal) (K : Fin 2048 → Fin 64 → EReal) (p : Fin 2048) : Fin 2048 → EReal :=
  fun j => Ideal.div (if j.val ≤ p.val then dot q (K j) else ⊥) (Ideal.sqrt c64)

def softmax (s : Fin 2048 → EReal) : Fin 2048 → EReal :=
  fun j => Ideal.div (Ideal.exp (s j - Finset.univ.sup s)) (∑ i, Ideal.exp (s i - Finset.univ.sup s))

def attnRow (q : Fin 64 → EReal) (K V : Fin 2048 → Fin 64 → EReal) (p : Fin 2048) : Fin 64 → EReal :=
  fun d => ∑ j, softmax (score q K p) j * V j d

def hidden (x : Fin 1024 → EReal) (Wup : Fin 1024 → Fin 4096 → EReal) (bup : Fin 4096 → EReal) : Fin 4096 → EReal :=
  fun f => max (dot x (fun e => Wup e f) + bup f) 0

def ffRow (x : Fin 1024 → EReal) (Wup : Fin 1024 → Fin 4096 → EReal) (bup : Fin 4096 → EReal)
    (Wdown : Fin 4096 → Fin 1024 → EReal) (bdown : Fin 1024 → EReal) : Fin 1024 → EReal :=
  fun e => dot (hidden x Wup bup) (fun f => Wdown f e) + bdown e

end Cert.Spec

end
-- ==== Proof.LibValue.lean ====
import Idealize.ShloMosaic.Lib.StackMember
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibValue

open Idealize.ShloMosaic Idealize.ShloMosaic.ValueIdx

-- A block product into the zero accumulator is, entry by entry, the plain dot product of a row and a column.
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ _ = FloatOps.dotGeneral _ prec _ A B _
  rw [Ideal.matmul_constant_zero_apply, Ideal.dotGeneral_apply]

-- A sum along the second axis, read at a row.
theorem laneSum_apply {a b : ℕ} (y : FVec Ideal ⟨2, ![a, b]⟩ .f32) (hr : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ y 0x00000000#32 hr hφ hacc (ix1 p) = ∑ k : Fin b, y (ix2 p k) := by
  refine (Ideal.multiReduction_add_single y 0x00000000#32 hr hφ hacc (ix1 p)).trans ?_
  show ∑ k : Fin b, y (hr.lift (ix1 p) k) = _
  refine Finset.sum_congr rfl fun k _ => congrArg y (funext fun c => Fin.ext ?_)
  match c with
  | ⟨0, _⟩ => rfl
  | ⟨1, _⟩ => rfl

variable {α : Type}

-- A vector recast as a column keeps its entries.
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

-- A column broadcast along the rows reads the column's entry of that row.
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibValue

end
-- ==== Proof.KernelIdeal.Value0.lean ====
import proofs.«423649_j35837207118382_3_alg».proof.Proof.KernelIdeal.Shape
import proofs.«423649_j35837207118382_3_alg».proof.Proof.Spec
import proofs.«423649_j35837207118382_3_alg».proof.Proof.LibValue
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Window)
open Cert.LibValue

variable (V : (c : Dev nD) → (b : Ref sig .tc) → Buf (Elt Ideal) ((c : Thread nD τ).loc b))

abbrev X0 (c : Dev nD) : Vec Ideal S8192x1024 .f32 := V c main_v0
abbrev Wq0 (c : Dev nD) : Vec Ideal S1024x3072 .bf16 := V c main_v1
abbrev B0 (c : Dev nD) : Vec Ideal S1x3072 .f32 := V c main_v7

abbrev res0 (c : Dev nD) : Vec Ideal S8192x3072 .bf16 := (dat0 (F := Ideal) V c).arrAt 3 cfg0.N

theorem out0_apply (x : Vec Ideal S1024x1024 .f32) (w : Vec Ideal S1024x1024 .bf16) (b : Vec Ideal S1x1024 .f32) (p q : Fin 1024) :
    out0 x w b (ix2 p q) = Cert.Spec.dot (fun k : Fin 1024 => x (ix2 p k)) (fun k : Fin 1024 => w (ix2 k q)) + b (ix2 (0 : Fin 1) q) := by
  unfold out0 k0_pay3 acc0 k0_pay2 k0_pay1
  simp only [shapeCast_self]
  refine congrArg₂ (· + ·) (Eq.trans ?_ (matmul_plain_apply (φ₂ := .bf16) none (truncf .bf16 x bitsLt_bf16_f32) w p q))
    (broadcastTo_1b_ab_apply _ _ p q)
  exact (congrArg (· + _) Ideal.ofBits_zero_f32).trans (zero_add _)

def G0 (c : Dev nD) : Vec Ideal S8192x3072 .bf16 := fun i =>
  Cert.Spec.dot (fun k : Fin 1024 => X0 V c (ix2 (i 0) k)) (fun k : Fin 1024 => Wq0 V c (ix2 k (i 1))) + B0 V c (ix2 0 (i 1))

theorem idx_zero0 : ∀ t : Fin cfg0.N, win0_0.index t (1 : Fin 2) = 0 ∧ win0_1.index t (0 : Fin 2) = 0 :=
  (by decide +kernel : ∀ t : Fin grid0.N, _)

theorem idx_onto0 : ∀ (q0 : Fin 8) (q1 : Fin 3), ∃ t : Fin cfg0.N, win0_3.index t = ![q0.val, q1.val] :=
  (by decide +kernel : ∀ (q0 : Fin 8) (q1 : Fin 3), ∃ t : Fin grid0.N, win0_3.index t = ![q0.val, q1.val])

-- Each operand's block sits, axis by axis, where the output block does or at the array's start.
theorem flushed0_eq (c : Dev nD) (t : Fin cfg0.N) :
    (dat0 (F := Ideal) V c).flushed 3 t = ((cfg0.win 3).blk t).view.read (Elt Ideal) (G0 V c) := by
  obtain ⟨e0, e1⟩ := idx_zero0 t
  funext j
  obtain ⟨p, q, rfl⟩ : ∃ (p q : Fin 1024), j = ix2 p q := ⟨j 0, j 1, eq_ix2 j⟩
  refine (out0_apply _ _ _ p q).trans (congrArg₂ (· + ·) (Finset.sum_congr rfl fun k _ => congrArg₂ (· * ·)
    (congrArg (V c main_v0) ?_) (congrArg (V c main_v1) ?_)) (congrArg (V c main_v7) ?_))
  all_goals refine Shape.idx_ext₂ ?_ ?_
  all_goals first | rfl | exact Window.rect_emb_val_of_index_zero _ t _ (by first | rfl | assumption) _

theorem cover0 (i : S8192x3072.Idx) :
    ∃ t : Fin cfg0.N, (cfg0.win 3).flush t = true ∧ i ∈ ((cfg0.win 3).blk t).view.set := by
  have h0 := idx2_lt0 i
  have h1 := idx2_lt1 i
  obtain ⟨t, ht⟩ := idx_onto0 ⟨(i 0).val / 1024, by omega⟩ ⟨(i 1).val / 1024, by omega⟩
  have h : ((cfg0.win 3).blk t).view.emb (ix2 (⟨(i 0).val % 1024, by omega⟩ : Fin 1024) (⟨(i 1).val % 1024, by omega⟩ : Fin 1024)) = i :=
    Shape.idx_ext₂ ((win0_3.rect_emb_val t _ 0).trans (by rw [ht]; exact Nat.div_add_mod' _ 1024))
      ((win0_3.rect_emb_val t _ 1).trans (by rw [ht]; exact Nat.div_add_mod' _ 1024))
  exact ⟨t, flush0_3 t, h ▸ View.emb_mem_set _ _⟩

theorem value0 (c : Dev nD) (i : Fin 8192) (f : Fin 3072) :
    res0 V c (ix2 i f) = Cert.Spec.dot (fun k : Fin 1024 => X0 V c (ix2 i k)) (fun k : Fin 1024 => Wq0 V c (ix2 k f)) + B0 V c (ix2 0 f) :=
  congrFun ((dat0 (F := Ideal) V c).arrAt_eq_of_cover 3 (G0 V c) (fun t _ => flushed0_eq V c t) cover0) (ix2 i f)

end Cert.KernelIdeal.Hand

end
-- ==== Proof.Math.OnlineSoftmax.lean ====
import proofs.«423649_j35837207118382_3_alg».proof.Proof.Spec
import Mathlib.Data.EReal.Basic
import Mathlib.Data.EReal.Operations
import Mathlib.Analysis.Complex.Exponential
import Mathlib.Analysis.Real.Sqrt
import Mathlib.Algebra.BigOperators.Fin
import Mathlib.Algebra.Order.BigOperators.Group.Finset
import Mathlib.Data.Finset.Lattice.Fold

noncomputable section

open scoped BigOperators

namespace Cert.Math

open Idealize.ShloMosaic Cert.Spec

theorem coe_sum {ι : Type*} (s : Finset ι) (f : ι → ℝ) :
    ((∑ i ∈ s, f i : ℝ) : EReal) = ∑ i ∈ s, (f i : EReal) :=
  map_sum (⟨⟨((↑) : ℝ → EReal), EReal.coe_zero⟩, EReal.coe_add⟩ : ℝ →+ EReal) f s

theorem dot_finite {n : ℕ} (u v : Fin n → EReal) (hu : ∀ k, ∃ r : ℝ, u k = (r : EReal)) (hv : ∀ k, ∃ r : ℝ, v k = (r : EReal)) :
    ∃ r : ℝ, dot u v = (r : EReal) := by
  choose a ha using hu
  choose b hb using hv
  refine ⟨∑ k, a k * b k, ?_⟩
  rw [dot, coe_sum]
  exact Finset.sum_congr rfl fun k _ => by rw [ha, hb, EReal.coe_mul]

theorem c64_eq : c64 = ((64 : ℝ) : EReal) := by
  simp [c64, Ideal.ofBits, Ideal.ieee, -EReal.coe_mul]; norm_num

theorem cEighth_eq : cEighth = ((1 / 8 : ℝ) : EReal) := by
  simp [cEighth, Ideal.ofBits, Ideal.ieee, -EReal.coe_mul]; norm_num

theorem sqrt_c64 : Ideal.sqrt c64 = ((8 : ℝ) : EReal) := by
  have h : Real.sqrt 64 = 8 := by
    rw [show (64 : ℝ) = 8 * 8 by norm_num]; exact Real.sqrt_mul_self (by norm_num)
  rw [c64_eq, Ideal.sqrt_coe, if_neg (by norm_num), h]

def keyIdx (t : Fin 2) (j : Fin 1024) : Fin 2048 := ⟨t.val * 1024 + j.val, by omega⟩

def kscore (q : Fin 64 → EReal) (K : Fin 2048 → Fin 64 → EReal) (p : Fin 2048) : Fin 2048 → EReal :=
  fun j => if j.val ≤ p.val then dot q (K j) * cEighth else ⊥

theorem kscore_eq_score (q : Fin 64 → EReal) (K : Fin 2048 → Fin 64 → EReal) (p : Fin 2048) :
    kscore q K p = score q K p := by
  funext j
  simp only [kscore, score]
  rw [sqrt_c64, Ideal.div_coe (by norm_num : (8 : ℝ) ≠ 0), cEighth_eq]
  split_ifs
  · rfl
  · exact (EReal.bot_mul_coe_of_pos (by norm_num)).symm

abbrev RowSt : Type := EReal × EReal × (Fin 64 → EReal)

def rowInit : RowSt := (⊥, 0, fun _ => 0)

def rowFold (s : Fin 1024 → EReal) (v : Fin 1024 → Fin 64 → EReal) (st : RowSt) : RowSt :=
  (max st.1 (Finset.univ.sup s),
   Ideal.exp (st.1 - max st.1 (Finset.univ.sup s)) * st.2.1 + ∑ j, Ideal.exp (s j - max st.1 (Finset.univ.sup s)),
   fun d => Ideal.exp (st.1 - max st.1 (Finset.univ.sup s)) * st.2.2 d
      + ∑ j, Ideal.exp (s j - max st.1 (Finset.univ.sup s)) * v j d)

def rowQuot (st : RowSt) : Fin 64 → EReal := fun d => Ideal.div (st.2.2 d) st.2.1

theorem kscore_cases (q : Fin 64 → EReal) (K : Fin 2048 → Fin 64 → EReal) (p : Fin 2048)
    (hq : ∀ d, ∃ r : ℝ, q d = (r : EReal)) (hK : ∀ j d, ∃ r : ℝ, K j d = (r : EReal)) (j : Fin 2048) :
    kscore q K p j ≠ ⊤ ∧ (j.val ≤ p.val → kscore q K p j ≠ ⊥) := by
  simp only [kscore]
  split_ifs with hj
  · obtain ⟨r, hr⟩ := dot_finite q (K j) hq (hK j)
    rw [hr, cEighth_eq, ← EReal.coe_mul]; exact ⟨EReal.coe_ne_top _, fun _ => EReal.coe_ne_bot _⟩
  · exact ⟨bot_ne_top, fun h => absurd h hj⟩

def wgt (x : EReal) (M : ℝ) : ℝ := if x = ⊥ then 0 else Real.exp (x.toReal - M)

theorem wgt_bot (M : ℝ) : wgt ⊥ M = 0 := if_pos rfl

theorem wgt_coe (r M : ℝ) : wgt (r : EReal) M = Real.exp (r - M) := by
  rw [wgt, if_neg (EReal.coe_ne_bot r), EReal.toReal_coe]

theorem wgt_nonneg (x : EReal) (M : ℝ) : 0 ≤ wgt x M := by
  unfold wgt; split_ifs <;> positivity

theorem wgt_pos {x : EReal} (hx : x ≠ ⊥) (M : ℝ) : 0 < wgt x M := by
  rw [wgt, if_neg hx]; exact Real.exp_pos _

theorem wgt_rescale (x : EReal) (m₀ m₁ : ℝ) : wgt (m₀ : EReal) m₁ * wgt x m₀ = wgt x m₁ := by
  rw [wgt_coe]; unfold wgt
  split_ifs
  · exact mul_zero _
  · rw [← Real.exp_add]; congr 1; ring

theorem exp_sub_coe {x : EReal} (hx : x ≠ ⊤) (M : ℝ) : Ideal.exp (x - (M : EReal)) = ((wgt x M : ℝ) : EReal) := by
  induction x with
  | bot => rw [EReal.bot_sub, Ideal.exp_bot, wgt_bot, EReal.coe_zero]
  | coe r => rw [← EReal.coe_sub, Ideal.exp_coe, wgt_coe]
  | top => exact absurd rfl hx

theorem sum_exp_sub {ι : Type*} [Fintype ι] (s : ι → EReal) (hs : ∀ j, s j ≠ ⊤) (M : ℝ) :
    ∑ j, Ideal.exp (s j - (M : EReal)) = ((∑ j, wgt (s j) M : ℝ) : EReal) := by
  rw [coe_sum]; exact Finset.sum_congr rfl fun j _ => exp_sub_coe (hs j) M

theorem sum_exp_sub_mul {ι : Type*} [Fintype ι] (s : ι → EReal) (hs : ∀ j, s j ≠ ⊤) (M : ℝ)
    (v : ι → EReal) (w : ι → ℝ) (hv : ∀ j, v j = (w j : EReal)) :
    ∑ j, Ideal.exp (s j - (M : EReal)) * v j = ((∑ j, wgt (s j) M * w j : ℝ) : EReal) := by
  rw [coe_sum]
  exact Finset.sum_congr rfl fun j _ => by rw [exp_sub_coe (hs j) M, hv j, EReal.coe_mul]

theorem keyIdx_zero (i : Fin 1024) : keyIdx 0 i = Fin.castAdd 1024 i := Fin.ext (by simp [keyIdx])

theorem keyIdx_one (i : Fin 1024) : keyIdx 1 i = Fin.natAdd 1024 i := Fin.ext (by simp [keyIdx]; omega)

theorem sum_keys {α : Type*} [AddCommMonoid α] (f : Fin 2048 → α) :
    ∑ j, f j = ∑ i, f (keyIdx 0 i) + ∑ i, f (keyIdx 1 i) := by
  rw [show (∑ j, f j) = ∑ j : Fin (1024 + 1024), f j from rfl, Fin.sum_univ_add]
  simp only [keyIdx_zero, keyIdx_one]

theorem sup_keys (s : Fin 2048 → EReal) :
    Finset.univ.sup s
      = max (Finset.univ.sup fun i => s (keyIdx 0 i)) (Finset.univ.sup fun i => s (keyIdx 1 i)) :=
  eq_of_forall_ge_iff fun c => by
    simp only [Finset.sup_le_iff, max_le_iff, Finset.mem_univ, true_imp_iff, keyIdx_zero, keyIdx_one]
    exact Fin.forall_fin_add (m := 1024) (n := 1024) fun j => s j ≤ c

theorem sup_real {ι : Type*} [Fintype ι] (s : ι → EReal) (hs : ∀ j, s j ≠ ⊤) (j₀ : ι) (h0 : s j₀ ≠ ⊥) :
    ∃ M : ℝ, Finset.univ.sup s = (M : EReal) := by
  have ht : Finset.univ.sup s ≠ ⊤ :=
    ne_of_lt ((Finset.sup_lt_iff bot_lt_top).2 fun j _ => lt_top_iff_ne_top.2 (hs j))
  have hb : Finset.univ.sup s ≠ ⊥ := fun h =>
    h0 (le_bot_iff.1 (h ▸ Finset.le_sup (f := s) (Finset.mem_univ j₀)))
  exact ⟨_, (EReal.coe_toReal ht hb).symm⟩

theorem rowFold_real (s : Fin 1024 → EReal) (hs : ∀ j, s j ≠ ⊤) (v : Fin 1024 → Fin 64 → EReal)
    (w : Fin 1024 → Fin 64 → ℝ) (hv : ∀ j d, v j d = (w j d : EReal)) (m₀ : EReal) (hm₀ : m₀ ≠ ⊤) (l₀ : ℝ)
    (a₀ : Fin 64 → ℝ) (m₁ : ℝ) (hm : max m₀ (Finset.univ.sup s) = (m₁ : EReal)) :
    rowFold s v (m₀, (l₀ : EReal), fun d => (a₀ d : EReal))
      = ((m₁ : EReal), ((wgt m₀ m₁ * l₀ + ∑ j, wgt (s j) m₁ : ℝ) : EReal),
          fun d => ((wgt m₀ m₁ * a₀ d + ∑ j, wgt (s j) m₁ * w j d : ℝ) : EReal)) := by
  simp only [rowFold, hm, exp_sub_coe hm₀]
  refine Prod.ext rfl (Prod.ext ?_ (funext fun d => ?_))
  · rw [sum_exp_sub s hs m₁, ← EReal.coe_mul, ← EReal.coe_add]
  · dsimp only; rw [sum_exp_sub_mul s hs m₁ _ _ fun j => hv j d, ← EReal.coe_mul, ← EReal.coe_add]

theorem rowFold_init (s : Fin 1024 → EReal) (hs : ∀ j, s j ≠ ⊤) (v : Fin 1024 → Fin 64 → EReal)
    (w : Fin 1024 → Fin 64 → ℝ) (hv : ∀ j d, v j d = (w j d : EReal)) (m : ℝ)
    (hm : Finset.univ.sup s = (m : EReal)) :
    rowFold s v rowInit
      = ((m : EReal), ((∑ j, wgt (s j) m : ℝ) : EReal), fun d => ((∑ j, wgt (s j) m * w j d : ℝ) : EReal)) := by
  simpa [rowInit, wgt_bot] using rowFold_real s hs v w hv ⊥ bot_ne_top 0 (fun _ => 0) m (by rw [max_bot_left, hm])

theorem rowQuot_real (m : EReal) (l : ℝ) (hl : l ≠ 0) (a : Fin 64 → ℝ) (d : Fin 64) :
    rowQuot (m, (l : EReal), fun d => (a d : EReal)) d = ((a d * (1 / l) : ℝ) : EReal) := by
  show Ideal.div ((a d : ℝ) : EReal) (l : EReal) = _
  rw [Ideal.div_coe hl, ← EReal.coe_mul]

theorem softmax_sum_real (s : Fin 2048 → EReal) (hs : ∀ j, s j ≠ ⊤) (M : ℝ) (hM : Finset.univ.sup s = (M : EReal))
    (hL : (∑ j, wgt (s j) M) ≠ 0) (v : Fin 2048 → EReal) (w : Fin 2048 → ℝ) (hv : ∀ j, v j = (w j : EReal)) :
    ∑ j, softmax s j * v j = (((∑ j, wgt (s j) M * w j) * (1 / ∑ j, wgt (s j) M) : ℝ) : EReal) := by
  have hden : ∑ i, Ideal.exp (s i - Finset.univ.sup s) = ((∑ j, wgt (s j) M : ℝ) : EReal) := by
    rw [hM]; exact sum_exp_sub s hs M
  rw [Finset.sum_mul, coe_sum]
  refine Finset.sum_congr rfl fun j _ => ?_
  simp only [softmax]
  rw [hden, Ideal.div_coe hL, hM, exp_sub_coe (hs j) M, hv j, ← EReal.coe_mul, ← EReal.coe_mul]
  congr 1; ring

theorem sum_wgt_pos (s : Fin 2048 → EReal) (h0 : s 0 ≠ ⊥) (M : ℝ) : 0 < ∑ j, wgt (s j) M :=
  Finset.sum_pos' (fun j _ => wgt_nonneg _ _) ⟨0, Finset.mem_univ _, wgt_pos h0 M⟩

theorem two_tiles_aux (s : Fin 2048 → EReal) (hs : ∀ j, s j ≠ ⊤) (h0 : s 0 ≠ ⊥)
    (V : Fin 2048 → Fin 64 → EReal) (w : Fin 2048 → Fin 64 → ℝ) (hw : ∀ j d, V j d = (w j d : EReal)) (d : Fin 64) :
    rowQuot (rowFold (fun j => s (keyIdx 1 j)) (fun j => V (keyIdx 1 j))
      (rowFold (fun j => s (keyIdx 0 j)) (fun j => V (keyIdx 0 j)) rowInit)) d = ∑ j, softmax s j * V j d := by
  obtain ⟨m₀, hm₀⟩ := sup_real (fun i => s (keyIdx 0 i)) (fun i => hs _) 0 h0
  obtain ⟨M, hM⟩ := sup_real s hs 0 h0
  have hden : wgt (m₀ : EReal) M * ∑ i, wgt (s (keyIdx 0 i)) m₀ + ∑ i, wgt (s (keyIdx 1 i)) M
      = ∑ j, wgt (s j) M := by
    rw [Finset.mul_sum, sum_keys]; simp only [wgt_rescale]
  have hnum : wgt (m₀ : EReal) M * ∑ i, wgt (s (keyIdx 0 i)) m₀ * w (keyIdx 0 i) d
        + ∑ i, wgt (s (keyIdx 1 i)) M * w (keyIdx 1 i) d
      = ∑ j, wgt (s j) M * w j d := by
    rw [Finset.mul_sum, sum_keys]; simp only [← mul_assoc, wgt_rescale]
  have hL : 0 < ∑ j, wgt (s j) M := sum_wgt_pos s h0 M
  rw [rowFold_init _ (fun j => hs _) _ (fun j d => w (keyIdx 0 j) d) (fun j d => hw _ d) m₀ hm₀,
    rowFold_real _ (fun j => hs _) _ (fun j d => w (keyIdx 1 j) d) (fun j d => hw _ d) m₀ (EReal.coe_ne_top _) _ _ M
      (by rw [← hm₀, ← sup_keys s, hM]),
    softmax_sum_real s hs M hM hL.ne' (fun j => V j d) (fun j => w j d) (fun j => hw j d),
    rowQuot_real _ _ (ne_of_eq_of_ne hden hL.ne') _ d, hden, hnum]

/-- A second tile whose scores are all `⊥` has weight zero, so folding it changes nothing. -/
theorem first_tile_aux (s : Fin 2048 → EReal) (hs : ∀ j, s j ≠ ⊤) (h0 : s 0 ≠ ⊥) (hmask : ∀ i, s (keyIdx 1 i) = ⊥)
    (V : Fin 2048 → Fin 64 → EReal) (w : Fin 2048 → Fin 64 → ℝ) (hw : ∀ j d, V j d = (w j d : EReal)) (d : Fin 64) :
    rowQuot (rowFold (fun j => s (keyIdx 0 j)) (fun j => V (keyIdx 0 j)) rowInit) d = ∑ j, softmax s j * V j d := by
  obtain ⟨m₀, hm₀⟩ := sup_real (fun i => s (keyIdx 0 i)) (fun i => hs _) 0 h0
  rw [← two_tiles_aux s hs h0 V w hw d,
    rowFold_init _ (fun j => hs _) _ (fun j d => w (keyIdx 0 j) d) (fun j d => hw _ d) m₀ hm₀,
    rowFold_real _ (fun j => hs _) _ (fun j d => w (keyIdx 1 j) d) (fun j d => hw _ d) m₀ (EReal.coe_ne_top _) _ _ m₀
      (by rw [Finset.sup_congr rfl fun i _ => hmask i, Finset.sup_bot, max_bot_right])]
  simp [hmask, wgt_bot, wgt_coe]

theorem attn_first_tile (q : Fin 64 → EReal) (K V : Fin 2048 → Fin 64 → EReal) (p : Fin 2048) (hp : p.val < 1024)
    (hq : ∀ d, ∃ r : ℝ, q d = (r : EReal)) (hK : ∀ j d, ∃ r : ℝ, K j d = (r : EReal)) (hV : ∀ j d, ∃ r : ℝ, V j d = (r : EReal)) :
    rowQuot (rowFold (fun j => kscore q K p (keyIdx 0 j)) (fun j => V (keyIdx 0 j)) rowInit) = attnRow q K V p := by
  choose w hw using hV
  funext d
  show _ = ∑ j, softmax (score q K p) j * V j d
  rw [← kscore_eq_score q K p]
  exact first_tile_aux (kscore q K p) (fun j => (kscore_cases q K p hq hK j).1) ((kscore_cases q K p hq hK 0).2 (by simp))
    (fun i => if_neg (by simp [keyIdx]; omega)) V w hw d

theorem attn_two_tiles (q : Fin 64 → EReal) (K V : Fin 2048 → Fin 64 → EReal) (p : Fin 2048) (hp : 1024 ≤ p.val)
    (hq : ∀ d, ∃ r : ℝ, q d = (r : EReal)) (hK : ∀ j d, ∃ r : ℝ, K j d = (r : EReal)) (hV : ∀ j d, ∃ r : ℝ, V j d = (r : EReal)) :
    rowQuot (rowFold (fun j => kscore q K p (keyIdx 1 j)) (fun j => V (keyIdx 1 j))
      (rowFold (fun j => kscore q K p (keyIdx 0 j)) (fun j => V (keyIdx 0 j)) rowInit)) = attnRow q K V p := by
  choose w hw using hV
  funext d
  show _ = ∑ j, softmax (score q K p) j * V j d
  rw [← kscore_eq_score q K p]
  exact two_tiles_aux (kscore q K p) (fun j => (kscore_cases q K p hq hK j).1) ((kscore_cases q K p hq hK 0).2 (by simp)) V w hw d

end Cert.Math

end
-- ==== Proof.KernelIdeal.Value1Row.lean ====
import proofs.«423649_j35837207118382_3_alg».proof.Proof.KernelIdeal.Shape
import proofs.«423649_j35837207118382_3_alg».proof.Proof.Spec
import proofs.«423649_j35837207118382_3_alg».proof.Proof.LibValue
import proofs.«423649_j35837207118382_3_alg».proof.Proof.Math.OnlineSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibValue

theorem ofBits_negInf : Ideal.ofBits .f32 0xFF800000#32 = ⊥ := by simp [Ideal.ofBits, Ideal.ieee]

theorem negBig_eq : Named.named (F := Ideal) Cert.KernelIdeal.κ "neg_big" (φ := .f32) 0xFF333332#32 = ⊥ :=
  IdealRules.named_const.ideal_named_scalar _ _ _ _ rfl

theorem mask_bit (a1 a2 : Fin 2) (r j : Fin 1024) :
    IntOp.cmpi .sge (IntOp.addi (Scalar.muli (BitVec.ofNat 32 a1.val) 1024#32) (BitVec.ofNat 32 r.val))
        (IntOp.addi (Scalar.muli (BitVec.ofNat 32 a2.val) 1024#32) (BitVec.ofNat 32 j.val))
      = if a2.val * 1024 + j.val ≤ a1.val * 1024 + r.val then 1#1 else 0#1 := by
  have pos : ∀ (a : Fin 2) (x : Fin 1024), Affine.IsInt
      (Scalar.addi (Scalar.muli (BitVec.ofNat 32 a.val) 1024#32) (BitVec.ofNat 32 x.val)) (a.val * 1024 + x.val : ℕ) := fun a x => by
    have := a.isLt
    have := x.isLt
    exact Affine.addi (Affine.muli (Affine.ofNat a.val ⟨rfl, by omega⟩) (Affine.ofNat 1024 ⟨rfl, by omega⟩) ⟨rfl, by omega, by omega⟩)
      (Affine.ofNat x.val ⟨rfl, by omega⟩) ⟨by omega, by omega, by omega⟩
  split
  · exact Affine.sge_holds (pos a1 r) (pos a2 j) (by omega)
  · exact eq_zero_of_ne_one (Affine.sge_fails (pos a1 r) (pos a2 j) (by omega))

theorem matmul7_apply (x : FVec Ideal S1024x64 .bf16) (y : FVec Ideal S64x1024 .bf16) (r j : Fin 1024) :
    matmul dot_S1024x64_S64x1024_S1024x1024_1_0_0_1_n_n none x y (constant (F := Ideal) S1024x1024 .f32 0x00000000#32) (ix2 r j)
      = ∑ e : Fin 64, x (ix2 r e) * y (ix2 e j) :=
  matmul_plain_apply none x y r j

theorem matmul4_apply (x : FVec Ideal S1024x1024 .bf16) (y : FVec Ideal S1024x64 .bf16) (r : Fin 1024) (d : Fin 64) :
    matmul dot_S1024x1024_S1024x64_S1024x64_1_0_0_1_n_n none x y (constant (F := Ideal) S1024x64 .f32 0x00000000#32) (ix2 r d)
      = ∑ j : Fin 1024, x (ix2 r j) * y (ix2 j d) :=
  matmul_plain_apply none x y r d

theorem iota0_apply (h : S1024x1024.Iotas .tc 32 [0]) (r j : Fin 1024) :
    iota .tc S1024x1024 32 [0] h (ix2 r j) = BitVec.ofNat 32 r.val := iota_single_apply _ _ _ _ h _
theorem iota1_apply (h : S1024x1024.Iotas .tc 32 [1]) (r j : Fin 1024) :
    iota .tc S1024x1024 32 [1] h (ix2 r j) = BitVec.ofNat 32 j.val := iota_single_apply _ _ _ _ h _

theorem fold_max_eq_sup {n : ℕ} (b : EReal) (hb : b = ⊥) (f g : Fin n → EReal) (hfg : ∀ j, f j = g j) :
    (Finset.univ : Finset (Fin n)).fold max b f = Finset.univ.sup g := by
  subst hb
  rw [show f = g from funext hfg]
  rfl

theorem rowmax_apply (x : FVec Ideal S1024x1024 .f32) (h : S1024x1024.Reduces [1] S1024) (hφ : FKind.Formats .f32)
    (hacc : (0xFF800000#32 : BitVec 32) = FKind.maximumf.neutral .f32 hφ) (r : Fin 1024) :
    multiReduction .maximumf [1] S1024 x 0xFF800000#32 h hφ hacc (ix1 r) = Finset.univ.sup fun j : Fin 1024 => x (ix2 r j) := by
  refine (Ideal.multiReduction_maximumf_single x 0xFF800000#32 h hφ hacc (ix1 r)).trans ?_
  exact fold_max_eq_sup (n := 1024) _ ofBits_negInf _ _ (fun j => congrArg x ((eq_ix2 _).trans rfl))

theorem cmpi_apply' {s : Shape} {w : ℕ} (p : CmpIPredicate) (x y : IVec s w) (i : s.Idx) :
    cmpi p x y i = IntOp.cmpi p (x i) (y i) := rfl
theorem addi_apply' {s : Shape} {w : ℕ} (x y : IVec s w) (i : s.Idx) : addi x y i = IntOp.addi (x i) (y i) := rfl
theorem exp_apply' {s : Shape} {φ : FTy} (x : FVec Ideal s φ) (i : s.Idx) : exp x i = Ideal.exp (x i) := rfl

theorem pay7_apply (a1 a2 : Fin 2) (q k : FVec Ideal S1x1024x64 .bf16) (r j : Fin 1024) :
    k1_pay7 (F := Ideal) (BitVec.ofNat 32 a1.val) (BitVec.ofNat 32 a2.val) q k (ix2 r j)
      = if a2.val * 1024 + j.val ≤ a1.val * 1024 + r.val
        then (∑ e : Fin 64, q (ix3 (0 : Fin 1) r e) * k (ix3 (0 : Fin 1) j e)) * Cert.Spec.cEighth else ⊥ := by
  unfold k1_pay7
  dsimp only
  simp only [select_apply, cmpi_apply', addi_apply', broadcast_apply, mulf_apply]
  rw [iota0_apply, iota1_apply, mask_bit, matmul7_apply, negBig_eq]
  by_cases h : a2.val * 1024 + j.val ≤ a1.val * 1024 + r.val
  · rw [if_pos h, if_pos h, select_one]
    refine congrArg₂ (· * ·) (Finset.sum_congr rfl fun e _ => ?_) rfl
    rw [shapeCast_1ab_ab_apply, transpose_ix2_apply, shapeCast_1ab_ab_apply]
  · rw [if_neg h, if_neg h, select_zero]

theorem pay8_apply (a1 a2 : BitVec 32) (q k : FVec Ideal S1x1024x64 .bf16) (m : FVec Ideal S1024x1 .f32) (r : Fin 1024) :
    k1_pay8 (F := Ideal) a1 a2 q k m (ix2 r (0 : Fin 1))
      = max (m (ix2 r (0 : Fin 1))) (Finset.univ.sup fun j : Fin 1024 => k1_pay7 (F := Ideal) a1 a2 q k (ix2 r j)) := by
  unfold k1_pay8
  rw [maximumf_apply]
  exact congrArg (max _) ((shapeCast_a_a1_apply _ _ r 0).trans (rowmax_apply _ _ _ _ r))

theorem pay9_apply (a1 a2 : BitVec 32) (q k : FVec Ideal S1x1024x64 .bf16) (m m2 : FVec Ideal S1024x1 .f32) (r : Fin 1024) :
    k1_pay9 (F := Ideal) a1 a2 q k m m2 (ix2 r (0 : Fin 1))
      = Ideal.exp (m2 (ix2 r (0 : Fin 1)) - k1_pay8 (F := Ideal) a1 a2 q k m (ix2 r (0 : Fin 1))) := by
  unfold k1_pay9
  rw [exp_apply', subf_apply]

theorem pay10_apply (a1 a2 : BitVec 32) (q k : FVec Ideal S1x1024x64 .bf16) (m : FVec Ideal S1024x1 .f32) (r j : Fin 1024) :
    k1_pay10 (F := Ideal) a1 a2 q k m (ix2 r j)
      = Ideal.exp (k1_pay7 (F := Ideal) a1 a2 q k (ix2 r j) - k1_pay8 (F := Ideal) a1 a2 q k m (ix2 r (0 : Fin 1))) := by
  unfold k1_pay10
  rw [exp_apply', subf_apply, broadcastTo_a1_ab_apply]

theorem pay11_apply (a1 a2 : BitVec 32) (q k : FVec Ideal S1x1024x64 .bf16) (m m2 l : FVec Ideal S1024x1 .f32) (r : Fin 1024) :
    k1_pay11 (F := Ideal) a1 a2 q k m m2 l (ix2 r (0 : Fin 1))
      = k1_pay9 (F := Ideal) a1 a2 q k m m2 (ix2 r (0 : Fin 1)) * l (ix2 r (0 : Fin 1))
        + ∑ j : Fin 1024, k1_pay10 (F := Ideal) a1 a2 q k m (ix2 r j) := by
  unfold k1_pay11
  rw [shapeCast_self, addf_apply, mulf_apply]
  exact congrArg (_ + ·) ((shapeCast_a_a1_apply _ _ r 0).trans (laneSum_apply _ _ _ _ r))

theorem pay4_apply (a : FVec Ideal S1024x1 .f32) (p : FVec Ideal S1024x1024 .f32) (v : FVec Ideal S1x1024x64 .bf16) (acc : FVec Ideal S1024x64 .f32)
    (r : Fin 1024) (d : Fin 64) :
    k1_pay4 (F := Ideal) a p v acc (ix2 r d)
      = a (ix2 r (0 : Fin 1)) * acc (ix2 r d) + ∑ j : Fin 1024, p (ix2 r j) * v (ix3 (0 : Fin 1) j d) := by
  unfold k1_pay4
  rw [shapeCast_self, addf_apply, mulf_apply, broadcastTo_a1_ab_apply, matmul4_apply]
  refine congrArg (_ + ·) (Finset.sum_congr rfl fun j _ => ?_)
  rw [truncf_apply, shapeCast_1ab_ab_apply]

theorem pay5_apply (m : FVec Ideal S1024x1 .f32) : k1_pay5 (F := Ideal) m = m := by
  unfold k1_pay5
  exact shapeCast_self _ _

theorem pay6_apply (acc : FVec Ideal S1024x64 .f32) (l : FVec Ideal S1024x1 .f32) (r : Fin 1024) (d : Fin 64) :
    k1_pay6 (F := Ideal) acc l (ix3 (0 : Fin 1) r d) = Ideal.div (acc (ix2 r d)) (l (ix2 r (0 : Fin 1))) := by
  unfold k1_pay6
  refine (shapeCast_ab_1ab_apply _ _ 0 r d).trans ?_
  rw [truncf_apply, divf_apply, broadcastTo_a1_ab_apply]

open Cert.Math in

def rowOf (s : St1 Ideal) (r : Fin 1024) : Cert.Math.RowSt :=
  (s.1 (ix2 r (0 : Fin 1)), s.2.1 (ix2 r (0 : Fin 1)), fun d => s.2.2 (ix2 r d))

theorem rowOf_init1 (r : Fin 1024) : rowOf (init1 (F := Ideal)) r = Cert.Math.rowInit := by
  unfold rowOf init1 k1_pay1 k1_pay2 k1_pay3
  simp only [shapeCast_self]
  exact Prod.ext ofBits_negInf (Prod.ext Ideal.ofBits_zero_f32 (funext fun d => Ideal.ofBits_zero_f32))

theorem rowOf_fold1 (a1 a2 : BitVec 32) (q k v : FVec Ideal S1x1024x64 .bf16) (s : St1 Ideal) (r : Fin 1024) :
    rowOf (fold1 a1 a2 q k v s) r
      = Cert.Math.rowFold (fun j => k1_pay7 (F := Ideal) a1 a2 q k (ix2 r j)) (fun j d => v (ix3 (0 : Fin 1) j d)) (rowOf s r) := by
  simp only [rowOf, fold1, Cert.Math.rowFold, pay5_apply, pay11_apply, pay4_apply, pay9_apply, pay10_apply, pay8_apply a1 a2 q k s.1 r]

theorem quot1_apply (s : St1 Ideal) (r : Fin 1024) (d : Fin 64) :
    quot1 s (ix3 (0 : Fin 1) r d) = Cert.Math.rowQuot (rowOf s r) d :=
  pay6_apply s.2.2 s.2.1 r d

theorem rowOf_fold1_tile (a1 a2 : Fin 2) (qb kb vb : FVec Ideal S1x1024x64 .bf16) (s : St1 Ideal) (r : Fin 1024)
    (q : Fin 64 → EReal) (K U : Fin 2048 → Fin 64 → EReal) (p : Fin 2048) (hp : p.val = a1.val * 1024 + r.val)
    (hq : ∀ e, qb (ix3 (0 : Fin 1) r e) = q e) (hk : ∀ j e, kb (ix3 (0 : Fin 1) j e) = K (Cert.Math.keyIdx a2 j) e)
    (hv : ∀ j d, vb (ix3 (0 : Fin 1) j d) = U (Cert.Math.keyIdx a2 j) d) :
    rowOf (fold1 (BitVec.ofNat 32 a1.val) (BitVec.ofNat 32 a2.val) qb kb vb s) r
      = Cert.Math.rowFold (fun j => Cert.Math.kscore q K p (Cert.Math.keyIdx a2 j)) (fun j => U (Cert.Math.keyIdx a2 j)) (rowOf s r) := by
  rw [rowOf_fold1]
  congr 1
  · funext j
    rw [pay7_apply, ← hp]
    simp only [hq, hk]
    rfl
  · exact funext fun j => funext fun d => hv j d

end Cert.KernelIdeal.Hand

end
-- ==== Proof.KernelIdeal.Value1.lean ====
import proofs.«423649_j35837207118382_3_alg».proof.Proof.KernelIdeal.Shape
import proofs.«423649_j35837207118382_3_alg».proof.Proof.Spec
import proofs.«423649_j35837207118382_3_alg».proof.Proof.Math.OnlineSoftmax
import proofs.«423649_j35837207118382_3_alg».proof.Proof.KernelIdeal.Value1Row
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev Q1 (c : Dev nD) : Vec Ideal S64x2048x64 .bf16 := V c main_v16
abbrev K1 (c : Dev nD) : Vec Ideal S64x2048x64 .bf16 := V c main_v13
abbrev U1 (c : Dev nD) : Vec Ideal S64x2048x64 .bf16 := V c main_v19

abbrev res1 (c : Dev nD) : Vec Ideal S64x2048x64 .bf16 := (dat1 (F := Ideal) V c).arrAt 3 cfg1.N

theorem pos_facts : ∀ t : Fin cfg1.N,
    ((grid1.coords t) 1).val = t.val / 2 % 2 ∧ ((grid1.coords t) 2).val = t.val % 2
    ∧ win1_0.index t (0 : Fin 3) = t.val / 4 ∧ win1_0.index t (1 : Fin 3) = t.val / 2 % 2
    ∧ win1_1.index t (1 : Fin 3) = min (t.val % 2) (t.val / 2 % 2) :=
  (by decide +kernel : ∀ t : Fin grid1.N, _)

theorem st1_even (c : Dev nD) (n : ℕ) (hn : n < cfg1.N) (h : n % 2 = 0) :
    st1 (F := Ideal) V c n hn
      = fold1 (qw1 ⟨n, hn⟩) (kw1 ⟨n, hn⟩) (qb1 V c ⟨n, hn⟩) (kb1 V c ⟨n, hn⟩) (vb1 V c ⟨n, hn⟩) init1 := by
  cases n with
  | zero => rfl
  | succ n => rw [st1, if_neg (by omega), if_neg (by omega)]

abbrev qRow (c : Dev nD) (bh : Fin 64) (p : Fin 2048) : Fin 64 → EReal := fun d' => Q1 V c (ix3 bh p d')
abbrev kRows (c : Dev nD) (bh : Fin 64) : Fin 2048 → Fin 64 → EReal := fun j d' => K1 V c (ix3 bh j d')
abbrev uRows (c : Dev nD) (bh : Fin 64) : Fin 2048 → Fin 64 → EReal := fun j d' => U1 V c (ix3 bh j d')

def attn1 (c : Dev nD) : Vec Ideal S64x2048x64 .bf16 := fun i =>
  Cert.Spec.attnRow (qRow V c (i 0) (i 1)) (kRows V c (i 0)) (uRows V c (i 0)) (i 1) (i 2)

theorem fold_at (c : Dev nD) (t : Fin cfg1.N) (a1 a2 : Fin 2) (hq1 : t.val / 2 % 2 = a1.val) (hk1 : t.val % 2 = a2.val)
    (hle : a2.val ≤ a1.val) (r : Fin 1024) (bh : Fin 64) (p : Fin 2048) (h0 : bh.val = t.val / 4) (h1 : p.val = a1.val * 1024 + r.val)
    (s : St1 Ideal) :
    rowOf (fold1 (qw1 t) (kw1 t) (qb1 V c t) (kb1 V c t) (vb1 V c t) s) r
      = Cert.Math.rowFold (fun j => Cert.Math.kscore (qRow V c bh p) (kRows V c bh) p (Cert.Math.keyIdx a2 j))
          (fun j => uRows V c bh (Cert.Math.keyIdx a2 j)) (rowOf s r) := by
  obtain ⟨c1, c2, e0, e1, e2⟩ := pos_facts t
  have w1 : qw1 t = BitVec.ofNat 32 a1.val := congrArg (BitVec.ofNat 32) (c1.trans hq1)
  have w2 : kw1 t = BitVec.ofNat 32 a2.val := congrArg (BitVec.ofNat 32) (c2.trans hk1)
  rw [w1, w2]
  refine rowOf_fold1_tile a1 a2 (qb1 V c t) (kb1 V c t) (vb1 V c t) s r (qRow V c bh p) (kRows V c bh) (uRows V c bh) p h1
    (fun e => congrArg (V c main_v16) (funext fun a => Fin.ext ?_))
    (fun j e => congrArg (V c main_v13) (funext fun a => Fin.ext ?_))
    (fun j e => congrArg (V c main_v19) (funext fun a => Fin.ext ?_))
  · match a with
    | ⟨0, _⟩ => show win1_0.index t (0 : Fin 3) * 1 + 1 * 0 = bh.val; omega
    | ⟨1, _⟩ => show win1_0.index t (1 : Fin 3) * 1024 + 1 * r.val = p.val; omega
    | ⟨2, _⟩ => show 0 * 64 + 1 * e.val = e.val; omega
  all_goals
    match a with
    | ⟨0, _⟩ => show win1_0.index t (0 : Fin 3) * 1 + 1 * 0 = bh.val; omega
    | ⟨1, _⟩ => show win1_1.index t (1 : Fin 3) * 1024 + 1 * j.val = a2.val * 1024 + j.val; omega
    | ⟨2, _⟩ => show 0 * 64 + 1 * e.val = e.val; omega

theorem quot_flush (c : Dev nD)
    (hQ : ∀ j, ∃ x : ℝ, Q1 V c j = (x : EReal)) (hK : ∀ j, ∃ x : ℝ, K1 V c j = (x : EReal)) (hU : ∀ j, ∃ x : ℝ, U1 V c j = (x : EReal))
    (t : Fin cfg1.N) (hodd : t.val % 2 = 1) (r : Fin 1024) (d : Fin 64) (bh : Fin 64) (p : Fin 2048)
    (h0 : bh.val = t.val / 4) (h1 : p.val = t.val / 2 % 2 * 1024 + r.val) :
    quot1 (st1 (F := Ideal) V c t.val t.isLt) (ix3 (0 : Fin 1) r d)
      = Cert.Spec.attnRow (qRow V c bh p) (kRows V c bh) (uRows V c bh) p d := by
  obtain ⟨_ | n, hn⟩ := t
  · exact absurd hodd (show ¬(0 % 2 = 1) by decide)
  change (n + 1) % 2 = 1 at hodd
  change bh.val = (n + 1) / 4 at h0
  change p.val = (n + 1) / 2 % 2 * 1024 + r.val at h1
  show quot1 (st1 (F := Ideal) V c (n + 1) hn) (ix3 (0 : Fin 1) r d) = _
  have hn0 : n < cfg1.N := Nat.lt_of_succ_lt hn
  have hr : r.val < 1024 := r.isLt
  have hev : n % 2 = 0 := by omega
  have hqf : ∀ d', ∃ x : ℝ, qRow V c bh p d' = (x : EReal) := fun d' => hQ _
  have hKf : ∀ j d', ∃ x : ℝ, kRows V c bh j d' = (x : EReal) := fun j d' => hK _
  have hUf : ∀ j d', ∃ x : ℝ, uRows V c bh j d' = (x : EReal) := fun j d' => hU _
  have e0 := fold_at V c ⟨n, hn0⟩ ⟨(n + 1) / 2 % 2, by omega⟩ 0 (by show n / 2 % 2 = (n + 1) / 2 % 2; omega) hev (Nat.zero_le _) r bh p
    (by show bh.val = n / 4; omega) h1 init1
  rw [quot1_apply]
  rcases (by omega : (n + 1) % 4 = 1 ∨ (n + 1) % 4 = 3) with h4 | h4
  · rw [st1, if_pos h4, st1_even V c n hn0 hev, e0, rowOf_init1]
    exact congrFun (Cert.Math.attn_first_tile _ _ _ p (by omega) hqf hKf hUf) d
  · rw [st1, if_neg (by omega), if_pos h4, st1_even V c n hn0 hev,
      fold_at V c ⟨n + 1, hn⟩ ⟨(n + 1) / 2 % 2, by omega⟩ 1 rfl hodd (by show 1 ≤ (n + 1) / 2 % 2; omega) r bh p h0 h1 _, e0, rowOf_init1]
    exact congrFun (Cert.Math.attn_two_tiles _ _ _ p (by omega) hqf hKf hUf) d

theorem flushed3_eq (c : Dev nD)
    (hQ : ∀ j, ∃ x : ℝ, Q1 V c j = (x : EReal)) (hK : ∀ j, ∃ x : ℝ, K1 V c j = (x : EReal)) (hU : ∀ j, ∃ x : ℝ, U1 V c j = (x : EReal))
    (t : Fin cfg1.N) (hf : (cfg1.win 3).flush t = true) :
    (dat1 (F := Ideal) V c).flushed 3 t = ((cfg1.win 3).blk t).view.read (Elt Ideal) (attn1 V c) := by
  have hodd : t.val % 2 = 1 := (flush1_3 t).mp hf
  obtain ⟨-, -, e0, e1, -⟩ := pos_facts t
  funext y
  obtain ⟨u, r, d, rfl⟩ : ∃ (u : Fin 1) (r : Fin 1024) (d : Fin 64), y = ix3 u r d := ⟨y 0, y 1, y 2, eq_ix3 y⟩
  obtain rfl : u = 0 := Subsingleton.elim _ _
  refine (quot_flush V c hQ hK hU t hodd r d _ _ ?_ ?_).trans (congrArg (Cert.Spec.attnRow _ _ _ _) (Fin.ext ?_))
  · show win1_0.index t (0 : Fin 3) * 1 + 1 * 0 = t.val / 4; omega
  · show win1_0.index t (1 : Fin 3) * 1024 + 1 * r.val = t.val / 2 % 2 * 1024 + r.val; omega
  · show d.val = 0 * 64 + 1 * d.val; omega

theorem cover3 (i : S64x2048x64.Idx) :
    ∃ t : Fin cfg1.N, (cfg1.win 3).flush t = true ∧ i ∈ ((cfg1.win 3).blk t).view.set := by
  have hi0 : (i 0).val < 64 := (i 0).isLt
  have hi1 : (i 1).val < 2048 := (i 1).isLt
  obtain ⟨t, ht⟩ : ∃ t : Fin cfg1.N, t.val = 4 * (i 0).val + 2 * ((i 1).val / 1024) + 1 :=
    ⟨⟨4 * (i 0).val + 2 * ((i 1).val / 1024) + 1, by rw [show cfg1.N = 256 from N_1]; omega⟩, rfl⟩
  obtain ⟨-, -, e0, e1, -⟩ := pos_facts t
  have h : ((cfg1.win 3).blk t).view.emb (ix3 (0 : Fin 1) (⟨(i 1).val % 1024, by omega⟩ : Fin 1024) (i 2)) = i :=
    funext fun a => Fin.ext (by
      match a with
      | ⟨0, _⟩ => show win1_0.index t (0 : Fin 3) * 1 + 1 * 0 = (i 0).val; omega
      | ⟨1, _⟩ => show win1_0.index t (1 : Fin 3) * 1024 + 1 * ((i 1).val % 1024) = (i 1).val; omega
      | ⟨2, _⟩ => show 0 * 64 + 1 * (i 2).val = (i 2).val; omega)
  exact ⟨t, (flush1_3 t).mpr (by omega), h ▸ View.emb_mem_set _ _⟩

theorem final3 (c : Dev nD)
    (hQ : ∀ j, ∃ x : ℝ, Q1 V c j = (x : EReal)) (hK : ∀ j, ∃ x : ℝ, K1 V c j = (x : EReal)) (hU : ∀ j, ∃ x : ℝ, U1 V c j = (x : EReal)) :
    res1 V c = attn1 V c :=
  (dat1 (F := Ideal) V c).arrAt_eq_of_cover 3 (attn1 V c) (fun t hf => flushed3_eq V c hQ hK hU t hf) cover3

theorem value1 (c : Dev nD)
    (hQ : ∀ j, ∃ r : ℝ, Q1 V c j = (r : EReal)) (hK : ∀ j, ∃ r : ℝ, K1 V c j = (r : EReal)) (hU : ∀ j, ∃ r : ℝ, U1 V c j = (r : EReal))
    (bh : Fin 64) (p : Fin 2048) (d : Fin 64) :
    res1 V c (ix3 bh p d) = Cert.Spec.attnRow (fun d' : Fin 64 => Q1 V c (ix3 bh p d'))
      (fun (j : Fin 2048) (d' : Fin 64) => K1 V c (ix3 bh j d')) (fun (j : Fin 2048) (d' : Fin 64) => U1 V c (ix3 bh j d')) p d :=
  congrFun (final3 V c hQ hK hU) (ix3 bh p d)

end Cert.KernelIdeal.Hand

end
-- ==== Proof.KernelIdeal.Value2.lean ====
import proofs.«423649_j35837207118382_3_alg».proof.Proof.KernelIdeal.Shape
import proofs.«423649_j35837207118382_3_alg».proof.Proof.Spec
import proofs.«423649_j35837207118382_3_alg».proof.Proof.LibValue
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Window)
open Cert.LibValue

variable (V : (c : Dev nD) → (b : Ref sig .tc) → Buf (Elt Ideal) ((c : Thread nD τ).loc b))

abbrev H2 (c : Dev nD) : Vec Ideal S8192x1024 .bf16 := V c main_v23
abbrev Wo2 (c : Dev nD) : Vec Ideal S1024x1024 .bf16 := V c main_v2
abbrev B2 (c : Dev nD) : Vec Ideal S1x1024 .f32 := V c main_v24
abbrev R2 (c : Dev nD) : Vec Ideal S8192x1024 .f32 := V c main_v0
abbrev G2 (c : Dev nD) : Vec Ideal S1x1024 .f32 := V c main_v25
abbrev L2 (c : Dev nD) : Vec Ideal S1x1024 .f32 := V c main_v26

abbrev res2 (c : Dev nD) : Vec Ideal S8192x1024 .f32 := (dat2 (F := Ideal) V c).arrAt 6 cfg2.N

namespace Value2

theorem acc2_apply (h : FVec Ideal S512x1024 .bf16) (w : FVec Ideal S1024x1024 .bf16) (p : Fin 512) (q : Fin 1024) :
    acc2 (F := Ideal) h w (ix2 p q) = Cert.Spec.dot (fun k : Fin 1024 => h (ix2 p k)) (fun k : Fin 1024 => w (ix2 k q)) := by
  unfold acc2 k2_pay2 k2_pay1
  simp only [shapeCast_self]
  exact (congrArg (· + _) Ideal.ofBits_zero_f32).trans ((zero_add _).trans (matmul_plain_apply none h w p q))

theorem rsqrt_at {s : Shape} {φ : FTy} (a : FVec Ideal s φ) (i : s.Idx) : rsqrt a i = Ideal.rsqrt (a i) := rfl

theorem out2_apply (h : FVec Ideal S512x1024 .bf16) (w : FVec Ideal S1024x1024 .bf16) (b : FVec Ideal S1x1024 .f32)
    (r : FVec Ideal S512x1024 .f32) (g l : FVec Ideal S1x1024 .f32) (p : Fin 512) (q : Fin 1024) :
    out2 (F := Ideal) h w b r g l (ix2 p q)
      = Cert.Spec.lnRow
          (fun e' : Fin 1024 => Cert.Spec.dot (fun k : Fin 1024 => h (ix2 p k)) (fun k : Fin 1024 => w (ix2 k e')) + b (ix2 0 e'))
          (fun e' : Fin 1024 => g (ix2 0 e')) (fun e' : Fin 1024 => l (ix2 0 e')) q
        + r (ix2 p q) := by
  unfold out2 k2_pay3
  simp only [shapeCast_self, addf_apply, subf_apply, mulf_apply, divf_apply, rsqrt_at, broadcast_apply,
    broadcastTo_1b_ab_apply, broadcastTo_a1_ab_apply, shapeCast_a_a1_apply]
  rw [laneSum_apply, laneSum_apply]
  simp only [addf_apply, subf_apply, mulf_apply, divf_apply, broadcast_apply,
    broadcastTo_1b_ab_apply, broadcastTo_a1_ab_apply, shapeCast_a_a1_apply]
  rw [laneSum_apply]
  simp only [addf_apply, broadcastTo_1b_ab_apply, acc2_apply]
  rfl

def whole2 (c : Dev nD) : Vec Ideal S8192x1024 .f32 := fun j =>
  Cert.Spec.lnRow (fun e' : Fin 1024 => Cert.Spec.dot (fun k : Fin 1024 => H2 V c (ix2 (j 0) k)) (fun k : Fin 1024 => Wo2 V c (ix2 k e')) + B2 V c (ix2 0 e'))
    (fun e' : Fin 1024 => G2 V c (ix2 0 e')) (fun e' : Fin 1024 => L2 V c (ix2 0 e')) (j 1) + R2 V c j

theorem idx_zero2 : ∀ t : Fin cfg2.N, win2_0.index t (1 : Fin 2) = 0 ∧ win2_1.index t (0 : Fin 2) = 0 :=
  (by decide +kernel : ∀ t : Fin grid2.N, _)

theorem idx_onto2 : ∀ q : Fin 16, ∃ t : Fin cfg2.N, win2_6.index t (0 : Fin 2) = q.val :=
  (by decide +kernel : ∀ q : Fin 16, ∃ t : Fin grid2.N, _)

-- Each operand's block sits, axis by axis, where the output block does or at the array's start.
theorem flushed2_eq (c : Dev nD) (t : Fin cfg2.N) :
    (dat2 V c).flushed 6 t = ((cfg2.win 6).blk t).view.read (Elt Ideal) (whole2 V c) := by
  obtain ⟨e0, e1⟩ := idx_zero2 t
  funext j
  obtain ⟨p, q, rfl⟩ : ∃ (p : Fin 512) (q : Fin 1024), j = ix2 p q := ⟨j 0, j 1, eq_ix2 j⟩
  refine (out2_apply _ _ _ _ _ _ p q).trans (congrArg₂ (· + ·) (congr (congr (congr (congrArg Cert.Spec.lnRow (funext fun e' =>
    congrArg₂ (· + ·) (Finset.sum_congr rfl fun k _ => congrArg₂ (· * ·) (congrArg (V c main_v23) ?_) (congrArg (V c main_v2) ?_))
      (congrArg (V c main_v24) ?_))) (funext fun e' => congrArg (V c main_v25) ?_)) (funext fun e' => congrArg (V c main_v26) ?_))
    (Fin.ext (win2_6.rect_emb_val_of_index_zero t 1 rfl (ix2 p q)).symm)) rfl)
  all_goals refine Shape.idx_ext₂ ?_ ?_
  all_goals first | rfl | exact Window.rect_emb_val_of_index_zero _ t _ (by first | rfl | assumption) _

theorem cover2 (i : S8192x1024.Idx) :
    ∃ t : Fin cfg2.N, (cfg2.win 6).flush t = true ∧ i ∈ ((cfg2.win 6).blk t).view.set := by
  have h0 := idx2_lt0 i
  obtain ⟨t, e⟩ := idx_onto2 ⟨(i 0).val / 512, by omega⟩
  have h : ((cfg2.win 6).blk t).view.emb (ix2 (⟨(i 0).val % 512, by omega⟩ : Fin 512) (i 1)) = i :=
    Shape.idx_ext₂ ((win2_6.rect_emb_val t _ 0).trans (by rw [e]; exact Nat.div_add_mod' _ 512))
      (win2_6.rect_emb_val_of_index_zero t 1 rfl _)
  exact ⟨t, flush2_6 t, h ▸ View.emb_mem_set _ _⟩

end Value2

theorem value2 (c : Dev nD) (i : Fin 8192) (e : Fin 1024) :
    res2 V c (ix2 i e) = Cert.Spec.lnRow
        (fun e' : Fin 1024 => Cert.Spec.dot (fun k : Fin 1024 => H2 V c (ix2 i k)) (fun k : Fin 1024 => Wo2 V c (ix2 k e')) + B2 V c (ix2 0 e'))
        (fun e' : Fin 1024 => G2 V c (ix2 0 e')) (fun e' : Fin 1024 => L2 V c (ix2 0 e')) e
      + R2 V c (ix2 i e) :=
  congrFun ((dat2 V c).arrAt_eq_of_cover 6 (Value2.whole2 V c) (fun t _ => Value2.flushed2_eq V c t) Value2.cover2) (ix2 i e)

end Cert.KernelIdeal.Hand

end
-- ==== Proof.KernelIdeal.Value3.lean ====
import proofs.«423649_j35837207118382_3_alg».proof.Proof.KernelIdeal.Shape
import proofs.«423649_j35837207118382_3_alg».proof.Proof.Spec
import proofs.«423649_j35837207118382_3_alg».proof.Proof.LibValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibValue

variable (V : (c : Dev nD) → (b : Ref sig .tc) → Buf (Elt Ideal) ((c : Thread nD τ).loc b))

abbrev X3 (c : Dev nD) : Vec Ideal S8192x1024 .f32 := V c main_v27
abbrev Wu3 (c : Dev nD) : Vec Ideal S1024x4096 .bf16 := V c main_v3
abbrev Bu3 (c : Dev nD) : Vec Ideal S1x4096 .f32 := V c main_v28
abbrev Wd3 (c : Dev nD) : Vec Ideal S4096x1024 .bf16 := V c main_v4
abbrev Bd3 (c : Dev nD) : Vec Ideal S1x1024 .f32 := V c main_v29
abbrev G3 (c : Dev nD) : Vec Ideal S1x1024 .f32 := V c main_v30
abbrev L3 (c : Dev nD) : Vec Ideal S1x1024 .f32 := V c main_v31

abbrev res3 (c : Dev nD) : Vec Ideal S8192x1024 .f32 := (dat3 (F := Ideal) V c).arrAt 7 cfg3.N

namespace V3

theorem up_apply (a : FVec Ideal S512x1024 .bf16) (b : FVec Ideal S1024x512 .bf16) (r f : Fin 512) :
    matmul dot_S512x1024_S1024x512_S512x512_1_0_0_1_n_n none a b (constant (F := Ideal) S512x512 .f32 0x00000000#32) (ix2 r f)
      = ∑ k : Fin 1024, a (ix2 r k) * b (ix2 k f) :=
  matmul_plain_apply none a b r f

theorem dn_apply (a : FVec Ideal S512x512 .bf16) (b : FVec Ideal S512x1024 .bf16) (r : Fin 512) (e : Fin 1024) :
    matmul dot_S512x512_S512x1024_S512x1024_1_0_0_1_n_n none a b (constant (F := Ideal) S512x1024 .f32 0x00000000#32) (ix2 r e)
      = ∑ f : Fin 512, a (ix2 r f) * b (ix2 f e) :=
  matmul_plain_apply none a b r e

theorem pay1_apply (j : S512x1024.Idx) : (k3_pay1 (F := Ideal)) j = 0 := by
  unfold k3_pay1
  simp only [shapeCast_self]
  exact Ideal.ofBits_zero_f32

theorem pay3_apply (acc : Vec Ideal S512x1024 .f32) (bd g l : Vec Ideal S1x1024 .f32) (x : Vec Ideal S512x1024 .f32)
    (r : Fin 512) (e : Fin 1024) :
    k3_pay3 acc bd g l x (ix2 r e)
      = Cert.Spec.lnRow (fun k : Fin 1024 => acc (ix2 r k) + bd (ix2 0 k)) (fun k : Fin 1024 => g (ix2 0 k)) (fun k : Fin 1024 => l (ix2 0 k)) e
        + x (ix2 r e) := by
  unfold k3_pay3
  simp only [shapeCast_self]
  simp only [addf_apply, mulf_apply, subf_apply, broadcastTo_a1_ab_apply, broadcastTo_1b_ab_apply, rsqrt, divf_apply,
    shapeCast_a_a1_apply, broadcast_apply]
  rw [laneSum_apply, laneSum_apply]
  simp only [addf_apply, mulf_apply, subf_apply, broadcastTo_a1_ab_apply, broadcastTo_1b_ab_apply, divf_apply,
    shapeCast_a_a1_apply, broadcast_apply]
  rw [laneSum_apply]
  simp only [addf_apply, broadcastTo_1b_ab_apply]
  rfl

theorem blk_idx : ∀ t : Fin cfg3.N, win3_0.index t (0 : Fin 2) = t.val / 8 ∧ win3_1.index t (1 : Fin 2) = t.val % 8 :=
  (by decide +kernel : ∀ t : Fin grid3.N, _)

theorem xb3_apply (c : Dev nD) (t : Fin cfg3.N) (r : Fin 512) (k : Fin 1024) (i : Fin 8192)
    (hi : i.val = 512 * (t.val / 8) + r.val) : xb3 V c t (ix2 r k) = X3 V c (ix2 i k) := by
  have h := (blk_idx t).1
  refine congrArg (V c main_v27) (Shape.idx_ext₂ ?_ (Window.rect_emb_val_of_index_zero _ t _ rfl _))
  show win3_0.index t (0 : Fin 2) * 512 + 1 * r.val = i.val
  omega

theorem ub3_apply (c : Dev nD) (t : Fin cfg3.N) (k : Fin 1024) (f : Fin 512) (f' : Fin 4096)
    (hf : f'.val = 512 * (t.val % 8) + f.val) : ub3 V c t (ix2 k f) = Wu3 V c (ix2 k f') := by
  have h := (blk_idx t).2
  refine congrArg (V c main_v3) (Shape.idx_ext₂ (Window.rect_emb_val_of_index_zero _ t _ rfl _) ?_)
  show win3_1.index t (1 : Fin 2) * 512 + 1 * f.val = f'.val
  omega

theorem cb3_apply (c : Dev nD) (t : Fin cfg3.N) (f : Fin 512) (f' : Fin 4096)
    (hf : f'.val = 512 * (t.val % 8) + f.val) : cb3 V c t (ix2 0 f) = Bu3 V c (ix2 0 f') := by
  have h := (blk_idx t).2
  refine congrArg (V c main_v28) (Shape.idx_ext₂ (Window.rect_emb_val_of_index_zero _ t _ rfl _) ?_)
  show win3_1.index t (1 : Fin 2) * 512 + 1 * f.val = f'.val
  omega

theorem db3_apply (c : Dev nD) (t : Fin cfg3.N) (f : Fin 512) (e : Fin 1024) (f' : Fin 4096)
    (hf : f'.val = 512 * (t.val % 8) + f.val) : db3 V c t (ix2 f e) = Wd3 V c (ix2 f' e) := by
  have h := (blk_idx t).2
  refine congrArg (V c main_v4) (Shape.idx_ext₂ ?_ (Window.rect_emb_val_of_index_zero _ t _ rfl _))
  show win3_1.index t (1 : Fin 2) * 512 + 1 * f.val = f'.val
  omega

theorem eb3_apply (c : Dev nD) (t : Fin cfg3.N) (e : Fin 1024) : eb3 V c t (ix2 0 e) = Bd3 V c (ix2 0 e) := by
  refine congrArg (V c main_v29) (Shape.idx_ext₂ ?_ ?_) <;> exact Window.rect_emb_val_of_index_zero _ t _ rfl _

theorem gb3_apply (c : Dev nD) (t : Fin cfg3.N) (e : Fin 1024) : gb3 V c t (ix2 0 e) = G3 V c (ix2 0 e) := by
  refine congrArg (V c main_v30) (Shape.idx_ext₂ ?_ ?_) <;> exact Window.rect_emb_val_of_index_zero _ t _ rfl _

theorem lb3_apply (c : Dev nD) (t : Fin cfg3.N) (e : Fin 1024) : lb3 V c t (ix2 0 e) = L3 V c (ix2 0 e) := by
  refine congrArg (V c main_v31) (Shape.idx_ext₂ ?_ ?_) <;> exact Window.rect_emb_val_of_index_zero _ t _ rfl _

def hid (s : Fin 8) (f : Fin 512) : Fin 4096 := ⟨512 * s.val + f.val, by omega⟩

abbrev hid3 (c : Dev nD) (i : Fin 8192) : Fin 4096 → EReal :=
  Cert.Spec.hidden (fun k : Fin 1024 => X3 V c (ix2 i k)) (fun (k : Fin 1024) (f : Fin 4096) => Wu3 V c (ix2 k f)) (fun f : Fin 4096 => Bu3 V c (ix2 0 f))

abbrev ff3 (c : Dev nD) (i : Fin 8192) : Fin 1024 → EReal :=
  Cert.Spec.ffRow (fun k : Fin 1024 => X3 V c (ix2 i k)) (fun (k : Fin 1024) (f : Fin 4096) => Wu3 V c (ix2 k f)) (fun f : Fin 4096 => Bu3 V c (ix2 0 f))
    (fun (f : Fin 4096) (e' : Fin 1024) => Wd3 V c (ix2 f e')) (fun e' : Fin 1024 => Bd3 V c (ix2 0 e'))

def tile (c : Dev nD) (i : Fin 8192) (e : Fin 1024) (s : Fin 8) : EReal :=
  ∑ f : Fin 512, hid3 V c i (hid s f) * Wd3 V c (ix2 (hid s f) e)

def tileN (c : Dev nD) (i : Fin 8192) (e : Fin 1024) (s : ℕ) : EReal := if h : s < 8 then tile V c i e ⟨s, h⟩ else 0

theorem step_apply (c : Dev nD) (t : Fin cfg3.N) (prev : Vec Ideal S512x1024 .f32) (r : Fin 512) (e : Fin 1024)
    (i : Fin 8192) (hi : i.val = 512 * (t.val / 8) + r.val) :
    k3_pay2 (xb3 V c t) (ub3 V c t) (cb3 V c t) prev (db3 V c t) (ix2 r e) = prev (ix2 r e) + tileN V c i e (t.val % 8) := by
  have hs : t.val % 8 < 8 := Nat.mod_lt _ (by decide)
  rw [tileN, dif_pos hs]
  unfold k3_pay2
  simp only [shapeCast_self]
  rw [addf_apply, dn_apply]
  refine congrArg (prev (ix2 r e) + ·) (Finset.sum_congr rfl fun f _ => ?_)
  rw [truncf_apply, maximumf_apply, addf_apply, up_apply, broadcastTo_1b_ab_apply, broadcast_apply,
    cb3_apply V c t f (hid ⟨_, hs⟩ f) rfl, db3_apply V c t f e (hid ⟨_, hs⟩ f) rfl]
  simp only [truncf_apply, xb3_apply V c t r _ i hi, ub3_apply V c t _ f (hid ⟨_, hs⟩ f) rfl]
  rw [show (Scalar.ofBits (F := Ideal) .f32 0x00000000#32 : EReal) = 0 from Ideal.ofBits_zero_f32]
  rfl

-- By induction on n: the entry is the sum of the first n % 8 + 1 partial products of its row block.
theorem acc3_sum (c : Dev nD) (r : Fin 512) (e : Fin 1024) (i : Fin 8192) :
    ∀ (n : ℕ) (hn : n < cfg3.N), i.val = 512 * (n / 8) + r.val →
      acc3 V c n hn (ix2 r e) = ∑ s ∈ Finset.range (n % 8 + 1), tileN V c i e s
  | 0, hn, hi => by
    rw [acc3, step_apply V c ⟨0, hn⟩ _ r e i hi, pay1_apply, zero_add]
    exact (Finset.sum_range_one _).symm
  | n + 1, hn, hi => by
    rw [acc3]
    by_cases h : (n + 1) % 8 = 0
    · rw [if_pos h, step_apply V c ⟨n + 1, hn⟩ _ r e i hi, pay1_apply, zero_add]
      show tileN V c i e ((n + 1) % 8) = _
      rw [h]
      exact (Finset.sum_range_one _).symm
    · rw [if_neg h, step_apply V c ⟨n + 1, hn⟩ _ r e i hi, acc3_sum c r e i n (Nat.lt_of_succ_lt hn) (by omega)]
      show _ + tileN V c i e ((n + 1) % 8) = _
      rw [show (n + 1) % 8 = n % 8 + 1 by omega, Finset.sum_range_succ _ (n % 8 + 1)]

theorem acc3_last (c : Dev nD) (t : Fin cfg3.N) (ht : t.val % 8 = 7) (r : Fin 512) (e : Fin 1024) (i : Fin 8192)
    (hi : i.val = 512 * (t.val / 8) + r.val) :
    acc3 V c t.val t.isLt (ix2 r e) = ∑ s : Fin 8, tile V c i e s := by
  rw [acc3_sum V c r e i t.val t.isLt hi, ht, Finset.sum_range]
  exact Finset.sum_congr rfl fun s _ => dif_pos s.isLt

theorem tiles_total (F : Fin 4096 → EReal) : ∑ s : Fin 8, ∑ f : Fin 512, F (hid s f) = ∑ f' : Fin 4096, F f' := by
  rw [← Equiv.sum_comp (finProdFinEquiv (m := 8) (n := 512)) F, Fintype.sum_prod_type]
  refine Finset.sum_congr rfl fun s _ => Finset.sum_congr rfl fun f _ => congrArg F (Fin.ext ?_)
  show 512 * s.val + f.val = f.val + 512 * s.val
  omega

def G (c : Dev nD) : Vec Ideal S8192x1024 .f32 := fun idx =>
  Cert.Spec.lnRow (ff3 V c (idx 0)) (fun e' : Fin 1024 => G3 V c (ix2 0 e')) (fun e' : Fin 1024 => L3 V c (ix2 0 e')) (idx 1) + X3 V c idx

theorem out3_apply (c : Dev nD) (t : Fin cfg3.N) (ht : t.val % 8 = 7) (r : Fin 512) (e : Fin 1024) (i : Fin 8192)
    (hi : i.val = 512 * (t.val / 8) + r.val) : out3 V c t (ix2 r e) = G V c (ix2 i e) := by
  unfold out3
  refine (pay3_apply (acc3 V c t.val t.isLt) (eb3 V c t) (gb3 V c t) (lb3 V c t) (xb3 V c t) r e).trans ?_
  have h1 : (fun k : Fin 1024 => acc3 V c t.val t.isLt (ix2 r k) + eb3 V c t (ix2 0 k))
      = ff3 V c i := funext fun k => by
    rw [acc3_last V c t ht r k i hi, eb3_apply V c t k]
    exact congrArg (· + Bd3 V c (ix2 0 k)) (tiles_total fun f' : Fin 4096 => hid3 V c i f' * Wd3 V c (ix2 f' k))
  rw [h1, funext fun k => gb3_apply V c t k, funext fun k => lb3_apply V c t k, xb3_apply V c t r e i hi]
  rfl

theorem flushed_eq (c : Dev nD) (t : Fin cfg3.N) (hf : (cfg3.win 7).flush t = true) :
    (dat3 (F := Ideal) V c).flushed 7 t = ((cfg3.win 7).blk t).view.read (Elt Ideal) (G V c) := by
  have ht : t.val % 8 = 7 := (flush3_7 t).mp hf
  have hN : t.val < 128 := lt_of_lt_of_eq t.isLt N_3
  have h := (blk_idx t).1
  funext y
  obtain ⟨r, e, rfl⟩ : ∃ (r : Fin 512) (e : Fin 1024), y = ix2 r e := ⟨y 0, y 1, eq_ix2 y⟩
  refine (out3_apply V c t ht r e ⟨512 * (t.val / 8) + r.val, by omega⟩ rfl).trans
    (congrArg (G V c) (Shape.idx_ext₂ ?_ (win3_7.rect_emb_val_of_index_zero t 1 rfl (ix2 r e)).symm))
  show 512 * (t.val / 8) + r.val = win3_0.index t (0 : Fin 2) * 512 + 1 * r.val
  omega

theorem cover (i : S8192x1024.Idx) :
    ∃ t : Fin cfg3.N, (cfg3.win 7).flush t = true ∧ i ∈ ((cfg3.win 7).blk t).view.set := by
  have b0 := idx2_lt0 i
  obtain ⟨t, hv⟩ : ∃ t : Fin cfg3.N, t.val = 8 * ((i 0).val / 512) + 7 := ⟨⟨_, by have hN : cfg3.N = 128 := N_3; omega⟩, rfl⟩
  have h0 := (blk_idx t).1
  have h : ((cfg3.win 7).blk t).view.emb (ix2 (⟨(i 0).val % 512, by omega⟩ : Fin 512) (i 1)) = i :=
    Shape.idx_ext₂ ((win3_7.rect_emb_val t _ 0).trans (by show win3_0.index t (0 : Fin 2) * 512 + (i 0).val % 512 = (i 0).val; omega))
      (win3_7.rect_emb_val_of_index_zero t 1 rfl _)
  exact ⟨t, (flush3_7 t).mpr (by omega), h ▸ View.emb_mem_set _ _⟩

end V3

-- The row blocks tile the array, and eight partial sums over 512 hidden units add up to the sum over all 4096.
theorem value3 (c : Dev nD) (i : Fin 8192) (e : Fin 1024) :
    res3 V c (ix2 i e) = Cert.Spec.lnRow
        (Cert.Spec.ffRow (fun k : Fin 1024 => X3 V c (ix2 i k)) (fun (k : Fin 1024) (f : Fin 4096) => Wu3 V c (ix2 k f))
          (fun f : Fin 4096 => Bu3 V c (ix2 0 f)) (fun (f : Fin 4096) (e' : Fin 1024) => Wd3 V c (ix2 f e')) (fun e' : Fin 1024 => Bd3 V c (ix2 0 e')))
        (fun e' : Fin 1024 => G3 V c (ix2 0 e')) (fun e' : Fin 1024 => L3 V c (ix2 0 e')) e
      + X3 V c (ix2 i e) :=
  congrFun ((dat3 (F := Ideal) V c).arrAt_eq_of_cover 7 (V3.G V c) (V3.flushed_eq V c) V3.cover) (ix2 i e)

end Cert.KernelIdeal.Hand

end
-- ==== Proof.Ref.Attn.lean ====
import proofs.«423649_j35837207118382_3_alg».proof.Proof.Gen.ReferenceIdeal.Read
import proofs.«423649_j35837207118382_3_alg».proof.Proof.Spec
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S4x2048x1024, .f32⟩ : BufTy).Contents (Elt Ideal)) (x1 : (⟨S1024x3072, .f32⟩ : BufTy).Contents (Elt Ideal))

theorem ref_v0 (b : Fin 4) (s : Fin 2048) (f : Fin 3072) :
    val_main_v0 (F := Ideal) x0 x1 (ix3 b s f) = Cert.Spec.dot (fun k : Fin 1024 => x0 (ix3 b s k)) (fun k : Fin 1024 => x1 (ix2 k f)) := by
  rw [val_main_v0_apply]
  unfold Cert.Spec.dot
  refine Finset.sum_congr rfl fun k _ => ?_
  rw [show lidx_main_v0 (ix3 b s f) k = ix3 b s k from eq_ix3 _, show ridx_main_v0 (ix3 b s f) k = ix2 k f from eq_ix2 _]

def col (h : Fin 16) (t : Fin 3) (d : Fin 64) : Fin 3072 := ⟨h.val * 192 + t.val * 64 + d.val, by omega⟩

theorem idx_v4 (b : Fin 4) (h : Fin 16) (s : Fin 2048) (d : Fin 64) :
    idx_main_v4 (ix4 b h s d) = ix5 b h (0 : Fin 1) s d :=
  funext fun a => Fin.ext (by
    match a with
    | ⟨0, _⟩ => show (((b.val * 16 + h.val) * 2048 + s.val) * 64 + d.val) / 2097152 = b.val; omega
    | ⟨1, _⟩ => show (((b.val * 16 + h.val) * 2048 + s.val) * 64 + d.val) / 131072 % 16 = h.val; omega
    | ⟨2, _⟩ => rfl
    | ⟨3, _⟩ => show (((b.val * 16 + h.val) * 2048 + s.val) * 64 + d.val) / 64 % 2048 = s.val; omega
    | ⟨4, _⟩ => show (((b.val * 16 + h.val) * 2048 + s.val) * 64 + d.val) % 64 = d.val; omega)

theorem idx_v2 (b : Fin 4) (h : Fin 16) (t : Fin 3) (s : Fin 2048) (d : Fin 64) :
    idx_main_v2 (ix5 b h t s d) = ix5 b s h t d := eq_ix5 _

theorem idx_v1 (b : Fin 4) (s : Fin 2048) (h : Fin 16) (t : Fin 3) (d : Fin 64) :
    idx_main_v1 (ix5 b s h t d) = ix3 b s (col h t d) :=
  funext fun a => Fin.ext (by
    match a with
    | ⟨0, _⟩ => show ((((b.val * 2048 + s.val) * 16 + h.val) * 3 + t.val) * 64 + d.val) / 6291456 = b.val; omega
    | ⟨1, _⟩ => show ((((b.val * 2048 + s.val) * 16 + h.val) * 3 + t.val) * 64 + d.val) / 3072 % 2048 = s.val; omega
    | ⟨2, _⟩ => show ((((b.val * 2048 + s.val) * 16 + h.val) * 3 + t.val) * 64 + d.val) % 3072 = h.val * 192 + t.val * 64 + d.val; omega)

theorem ref_v4 (b : Fin 4) (h : Fin 16) (s : Fin 2048) (d : Fin 64) :
    val_main_v4 (F := Ideal) x0 x1 (ix4 b h s d) = val_main_v0 (F := Ideal) x0 x1 (ix3 b s (col h 0 d)) := by
  rw [val_main_v4_apply, val_main_v3_apply, val_main_v2_apply, val_main_v1_apply, idx_v4, show idx_main_v3 (ix5 b h (0 : Fin 1) s d) = ix5 b h (0 : Fin 3) s d from eq_ix5 _, idx_v2, idx_v1]
theorem ref_v6 (b : Fin 4) (h : Fin 16) (s : Fin 2048) (d : Fin 64) :
    val_main_v6 (F := Ideal) x0 x1 (ix4 b h s d) = val_main_v0 (F := Ideal) x0 x1 (ix3 b s (col h 1 d)) := by
  rw [val_main_v6_apply, val_main_v5_apply, val_main_v2_apply, val_main_v1_apply, show idx_main_v6 = idx_main_v4 from rfl, idx_v4, show idx_main_v5 (ix5 b h (0 : Fin 1) s d) = ix5 b h (1 : Fin 3) s d from eq_ix5 _, idx_v2, idx_v1]
theorem ref_v8 (b : Fin 4) (h : Fin 16) (s : Fin 2048) (d : Fin 64) :
    val_main_v8 (F := Ideal) x0 x1 (ix4 b h s d) = val_main_v0 (F := Ideal) x0 x1 (ix3 b s (col h 2 d)) := by
  rw [val_main_v8_apply, val_main_v7_apply, val_main_v2_apply, val_main_v1_apply, show idx_main_v8 = idx_main_v4 from rfl, idx_v4, show idx_main_v7 (ix5 b h (0 : Fin 1) s d) = ix5 b h (2 : Fin 3) s d from eq_ix5 _, idx_v2, idx_v1]

abbrev qRow (b : Fin 4) (h : Fin 16) (p : Fin 2048) : Fin 64 → EReal :=
  fun d' => val_main_v6 (F := Ideal) x0 x1 (ix4 b h p d')

abbrev kRows (b : Fin 4) (h : Fin 16) : Fin 2048 → Fin 64 → EReal :=
  fun j d' => val_main_v4 (F := Ideal) x0 x1 (ix4 b h j d')

abbrev sRow (b : Fin 4) (h : Fin 16) (p : Fin 2048) : Fin 2048 → EReal :=
  Cert.Spec.score (qRow x0 x1 b h p) (kRows x0 x1 b h) p

theorem idx_v20 (b : Fin 4) (h : Fin 16) (p j : Fin 2048) :
    idx_main_v20 (ix4 b h p j) = ix4 b h p (0 : Fin 1) := eq_ix4 _
theorem idx_v19 (b : Fin 4) (h : Fin 16) (p : Fin 2048) :
    idx_main_v19 (ix4 b h p (0 : Fin 1)) = ix3 b h p := eq_ix3 _

theorem negInf_word : FloatOps.ofBits (F := Ideal) .f32 0xFF800000#32 = (⊥ : EReal) := by
  show Ideal.ofBits .f32 0xFF800000#32 = ⊥
  simp [Ideal.ofBits, Ideal.ieee]

theorem mask_at (p j : Fin 2048) :
    val_main_v11 (F := Ideal) (ix2 p j) = if j.val ≤ p.val then 1#1 else 0#1 := by
  rw [val_main_v11_apply, val_main_call0_v4_apply, val_main_call0_v2_apply, val_main_call0_v0_apply,
    val_main_call0_v1_apply, val_main_call0_c_apply, val_main_call0_v3_apply, val_main_v10_apply, val_main_c_apply,
    val_main_call0_v5_apply, val_main_call0_c_0_apply]
  have ha : Affine.IsInt (Scalar.addi (BitVec.ofNat 32 p.val) (BitVec.ofNat 32 0)) (p.val : Int) :=
    Affine.addi (Affine.ofNat p.val ⟨rfl, by omega⟩) (Affine.ofNat 0 ⟨rfl, by omega⟩) ⟨by omega, by omega, by omega⟩
  have hb : Affine.IsInt (BitVec.ofNat 32 j.val) (j.val : Int) := Affine.ofNat j.val ⟨rfl, by omega⟩
  by_cases hjp : j.val ≤ p.val
  · rw [if_pos hjp]
    exact (congrArg (Scalar.select · (1#1 : BitVec 1) 0#1) (Affine.sge_holds ha hb (by omega))).trans (select_one _ _)
  · rw [if_neg hjp]
    exact (congrArg (Scalar.select · (1#1 : BitVec 1) 0#1) (eq_zero_of_ne_one (Affine.sge_fails ha hb (by omega)))).trans
      (select_zero _ _)

theorem v12_at (b : Fin 4) (h : Fin 16) (p j : Fin 2048) :
    val_main_v12 (F := Ideal) x0 x1 (ix4 b h p j)
      = if j.val ≤ p.val then Cert.Spec.dot (qRow x0 x1 b h p) (kRows x0 x1 b h j) else ⊥ := by
  rw [val_main_v12_apply, val_main_call1_v1_apply, show idx_main_call1_v1 (ix4 b h p j) = ix2 p j from eq_ix2 _, mask_at, val_main_call1_v2_apply,
    val_main_call1_v0_apply, val_main_cst_apply, val_main_v9_apply]
  by_cases hjp : j.val ≤ p.val
  · rw [if_pos hjp, if_pos hjp, select_one]
    unfold Cert.Spec.dot
    refine Finset.sum_congr rfl fun k _ => ?_
    rw [show lidx_main_v9 (ix4 b h p j) k = ix4 b h p k from eq_ix4 _, show ridx_main_v9 (ix4 b h p j) k = ix4 b h j k from eq_ix4 _]
  · rw [if_neg hjp, if_neg hjp, select_zero]
    exact negInf_word

theorem v15_at (b : Fin 4) (h : Fin 16) (p j : Fin 2048) :
    val_main_v15 (F := Ideal) x0 x1 (ix4 b h p j) = sRow x0 x1 b h p j := by
  rw [val_main_v15_apply, v12_at, val_main_v14_apply, val_main_v13_apply, val_main_cst_0_apply]
  rfl

theorem fold_maximumf_bot {n : ℕ} (g : Fin n → EReal) :
    (Finset.univ : Finset (Fin n)).fold (FloatOps.maximumf (F := Ideal) (φ := .f32)) (⊥ : EReal) g = Finset.univ.sup g := rfl

theorem rowMax_at (y : (⟨S4x16x2048x2048, .f32⟩ : BufTy).Contents (Elt Ideal)) (b : Fin 4) (h : Fin 16) (p : Fin 2048) :
    Host.reduce (FloatOps.maximumf (F := Ideal) (φ := .f32)) y (val_main_cst_1 (F := Ideal))
        reducesTo_S4x16x2048x2048_S4x16x2048_d3 h_S_ (ix3 b h p)
      = Finset.univ.sup fun k : Fin 2048 => y (ix4 b h p k) := by
  rw [Host.reduce_eq_fold_single (FloatOps.maximumf (F := Ideal) (φ := .f32)) y _ reducesTo_S4x16x2048x2048_S4x16x2048_d3 (by decide) h_S_,
    val_main_cst_1_apply, negInf_word]
  exact (fold_maximumf_bot _).trans (Finset.sup_congr rfl fun k _ => congrArg y (eq_ix4 _))

theorem v18_at (b : Fin 4) (h : Fin 16) (p : Fin 2048) :
    val_main_v18 (F := Ideal) x0 x1 (ix3 b h p) = Finset.univ.sup (sRow x0 x1 b h p) := by
  rw [val_main_v18_apply, val_main_v17_apply, val_main_cst_2_apply, negInf_word, Ideal.maximumf_def, max_bot_left]
  unfold val_main_v16
  generalize hy : val_main_v15 (F := Ideal) x0 x1 = y
  rw [rowMax_at]
  refine Finset.sup_congr rfl fun k _ => ?_
  rw [← hy]
  exact v15_at x0 x1 b h p k

theorem v22_at (b : Fin 4) (h : Fin 16) (p j : Fin 2048) :
    val_main_v22 (F := Ideal) x0 x1 (ix4 b h p j)
      = Ideal.exp (sRow x0 x1 b h p j - Finset.univ.sup (sRow x0 x1 b h p)) := by
  rw [val_main_v22_apply, val_main_v21_apply, v15_at, val_main_v20_apply, val_main_v19_apply, idx_v20, idx_v19, v18_at]
  rfl

theorem v23_at (b : Fin 4) (h : Fin 16) (p : Fin 2048) :
    val_main_v23 (F := Ideal) x0 x1 (ix3 b h p)
      = ∑ i : Fin 2048, Ideal.exp (sRow x0 x1 b h p i - Finset.univ.sup (sRow x0 x1 b h p)) := by
  rw [val_main_v23_apply, val_main_cst_3_apply, Ideal.ofBits_def, Ideal.ofBits_zero_f32, zero_add]
  refine Finset.sum_congr rfl fun k _ => ?_
  rw [show idx_main_v23 (ix3 b h p) k = ix4 b h p k from eq_ix4 _, v22_at]

theorem v26_at (b : Fin 4) (h : Fin 16) (p j : Fin 2048) :
    val_main_v26 (F := Ideal) x0 x1 (ix4 b h p j) = Cert.Spec.softmax (sRow x0 x1 b h p) j := by
  rw [val_main_v26_apply, v22_at, val_main_v25_apply, val_main_v24_apply, show idx_main_v25 = idx_main_v20 from rfl, idx_v20,
    show idx_main_v24 = idx_main_v19 from rfl, idx_v19, v23_at]
  rfl

theorem ref_v27 (b : Fin 4) (h : Fin 16) (p : Fin 2048) (d : Fin 64) :
    val_main_v27 (F := Ideal) x0 x1 (ix4 b h p d)
      = Cert.Spec.attnRow (fun d' : Fin 64 => val_main_v6 (F := Ideal) x0 x1 (ix4 b h p d'))
          (fun (j : Fin 2048) (d' : Fin 64) => val_main_v4 (F := Ideal) x0 x1 (ix4 b h j d'))
          (fun (j : Fin 2048) (d' : Fin 64) => val_main_v8 (F := Ideal) x0 x1 (ix4 b h j d')) p d := by
  rw [val_main_v27_apply]
  unfold Cert.Spec.attnRow
  refine Finset.sum_congr rfl fun j _ => ?_
  rw [show lidx_main_v27 (ix4 b h p d) j = ix4 b h p j from eq_ix4 _, show ridx_main_v27 (ix4 b h p d) j = ix4 b h j d from eq_ix4 _, v26_at]

theorem idx_v29 (b : Fin 4) (s : Fin 2048) (h : Fin 16) (d : Fin 64) (hc : h.val * 64 + d.val < 1024) :
    idx_main_v29 (ix3 b s (⟨h.val * 64 + d.val, hc⟩ : Fin 1024)) = ix4 b s h d :=
  funext fun a => Fin.ext (by
    match a with
    | ⟨0, _⟩ => show ((b.val * 2048 + s.val) * 1024 + (h.val * 64 + d.val)) / 2097152 = b.val; omega
    | ⟨1, _⟩ => show ((b.val * 2048 + s.val) * 1024 + (h.val * 64 + d.val)) / 1024 % 2048 = s.val; omega
    | ⟨2, _⟩ => show ((b.val * 2048 + s.val) * 1024 + (h.val * 64 + d.val)) / 64 % 16 = h.val; omega
    | ⟨3, _⟩ => show ((b.val * 2048 + s.val) * 1024 + (h.val * 64 + d.val)) % 64 = d.val; omega)

theorem ref_v29 (b : Fin 4) (s : Fin 2048) (h : Fin 16) (d : Fin 64) :
    val_main_v29 (F := Ideal) x0 x1 (ix3 b s (⟨h.val * 64 + d.val, by omega⟩ : Fin 1024)) = val_main_v27 (F := Ideal) x0 x1 (ix4 b h s d) := by
  rw [val_main_v29_apply, val_main_v28_apply, idx_v29, show idx_main_v28 (ix4 b s h d) = ix4 b h s d from eq_ix4 _]

end Cert.ReferenceIdeal.RefValue

end
-- ==== Proof.Ref.Tail.lean ====
import proofs.«423649_j35837207118382_3_alg».proof.Proof.Gen.ReferenceIdeal.Read
import proofs.«423649_j35837207118382_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S4x2048x1024, .f32⟩ : BufTy).Contents (Elt Ideal)) (x1 : (⟨S1024x3072, .f32⟩ : BufTy).Contents (Elt Ideal))

variable (x2 : (⟨S1024x1024, .f32⟩ : BufTy).Contents (Elt Ideal)) (x3 : (⟨S1024x4096, .f32⟩ : BufTy).Contents (Elt Ideal))
  (x4 : (⟨S4096, .f32⟩ : BufTy).Contents (Elt Ideal)) (x5 : (⟨S4096x1024, .f32⟩ : BufTy).Contents (Elt Ideal))
  (x6 x7 x8 x9 x10 : (⟨S1024, .f32⟩ : BufTy).Contents (Elt Ideal))

def dev2 (y : Fin 1024 → EReal) (k : Fin 1024) : EReal := (y k - Cert.Spec.mean y) * (y k - Cert.Spec.mean y)

theorem proj_at (b : Fin 4) (s : Fin 2048) (e' : Fin 1024) :
    val_main_v30 (F := Ideal) x0 x1 x2 (ix3 b s e')
      = Cert.Spec.dot (fun k : Fin 1024 => val_main_v29 (F := Ideal) x0 x1 (ix3 b s k)) (fun k : Fin 1024 => x2 (ix2 k e')) := by
  have hl : ∀ k : Fin 1024, lidx_main_v30 (ix3 b s e') k = ix3 b s k := fun k => eq_ix3 _
  have hr : ∀ k : Fin 1024, ridx_main_v30 (ix3 b s e') k = ix2 k e' := fun k => eq_ix2 _
  rw [val_main_v30_apply]
  simp only [hl, hr]
  unfold Cert.Spec.dot
  with_reducible rfl

theorem mean1_at (b : Fin 4) (s : Fin 2048) (z : Fin 1) :
    val_main_v34 (F := Ideal) x0 x1 x2 (ix3 b s z)
      = Cert.Spec.mean (fun e' : Fin 1024 => val_main_v30 (F := Ideal) x0 x1 x2 (ix3 b s e')) := by
  have h31 : ∀ k : Fin 1024, idx_main_v31 (idx_main_v32 (ix3 b s z)) k = ix3 b s k := fun k => eq_ix3 _
  rw [val_main_v34_apply, val_main_v32_apply, val_main_v31_apply, val_main_v33_apply, val_main_cst_4_apply,
    val_main_cst_5_apply]
  simp only [h31, Ideal.hostDivf_def, Ideal.ofBits_def, Ideal.ofBits_zero_f32, zero_add]
  rfl

theorem sq1_at (b : Fin 4) (s : Fin 2048) (k : Fin 1024) :
    val_main_v37 (F := Ideal) x0 x1 x2 (ix3 b s k)
      = dev2 (fun e' : Fin 1024 => val_main_v30 (F := Ideal) x0 x1 x2 (ix3 b s e')) k := by
  have h35 : idx_main_v35 (ix3 b s k) = ix3 b s (0 : Fin 1) := eq_ix3 _
  rw [val_main_v37_apply, val_main_v36_apply, val_main_v35_apply, h35, mean1_at]
  simp only [Ideal.mulf_def, Ideal.subf_def, dev2]

theorem var1_at (b : Fin 4) (s : Fin 2048) (z : Fin 1) :
    val_main_v41 (F := Ideal) x0 x1 x2 (ix3 b s z)
      = Cert.Spec.var (fun e' : Fin 1024 => val_main_v30 (F := Ideal) x0 x1 x2 (ix3 b s e')) := by
  have h38 : ∀ k : Fin 1024, idx_main_v38 (idx_main_v39 (ix3 b s z)) k = ix3 b s k := fun k => eq_ix3 _
  rw [val_main_v41_apply, val_main_v39_apply, val_main_v38_apply, val_main_v40_apply, val_main_cst_6_apply,
    val_main_cst_7_apply]
  simp only [h38, sq1_at, Ideal.hostDivf_def, Ideal.ofBits_def, Ideal.ofBits_zero_f32, zero_add]
  rfl

theorem ref_v55 (b : Fin 4) (s : Fin 2048) (e : Fin 1024) :
    val_main_v55 (F := Ideal) x0 x1 x2 x7 x8 (ix3 b s e)
      = Cert.Spec.lnRow (fun e' : Fin 1024 => Cert.Spec.dot (fun k : Fin 1024 => val_main_v29 (F := Ideal) x0 x1 (ix3 b s k)) (fun k : Fin 1024 => x2 (ix2 k e')))
          (fun e' : Fin 1024 => x7 (ix1 e')) (fun e' : Fin 1024 => x8 (ix1 e')) e
        + x0 (ix3 b s e) := by
  have h42 : idx_main_v42 (ix3 b s e) = ix3 b s (0 : Fin 1) := eq_ix3 _
  have h47 : idx_main_v47 (ix3 b s e) = ix3 b s (0 : Fin 1) := eq_ix3 _
  have h49 : idx_main_v49 (idx_main_v50 (ix3 b s e)) = ix1 e := eq_ix1 _
  have h52 : idx_main_v52 (idx_main_v53 (ix3 b s e)) = ix1 e := eq_ix1 _
  have hy := funext fun e' => proj_at x0 x1 x2 b s e'
  rw [val_main_v55_apply, val_main_v54_apply, val_main_v51_apply, val_main_v53_apply, val_main_v52_apply, h52,
    val_main_v48_apply, val_main_v50_apply, val_main_v49_apply, h49, val_main_v43_apply, val_main_v47_apply, h47,
    val_main_v42_apply, h42, val_main_v46_apply, val_main_v45_apply, val_main_v44_apply, val_main_cst_8_apply,
    mean1_at, var1_at, proj_at, hy]
  simp only [Ideal.addf_def, Ideal.mulf_def, Ideal.subf_def, Ideal.hostUnary_rsqrt_def, Ideal.ofBits_def]
  unfold Cert.Spec.lnRow Cert.Spec.cEps
  with_reducible rfl

theorem hidden_at (b : Fin 4) (s : Fin 2048) (f : Fin 4096) :
    val_main_v60 (F := Ideal) x0 x1 x2 x3 x4 x7 x8 (ix3 b s f)
      = Cert.Spec.hidden (fun k : Fin 1024 => val_main_v55 (F := Ideal) x0 x1 x2 x7 x8 (ix3 b s k)) (fun (k : Fin 1024) (f : Fin 4096) => x3 (ix2 k f)) (fun f : Fin 4096 => x4 (ix1 f)) f := by
  have hl : ∀ k : Fin 1024, lidx_main_v56 (ix3 b s f) k = ix3 b s k := fun k => eq_ix3 _
  have hr : ∀ k : Fin 1024, ridx_main_v56 (ix3 b s f) k = ix2 k f := fun k => eq_ix2 _
  have h57 : idx_main_v57 (idx_main_v58 (ix3 b s f)) = ix1 f := eq_ix1 _
  rw [val_main_v60_apply, val_main_v59_apply, val_main_v56_apply, val_main_v58_apply, val_main_v57_apply, h57,
    val_main_call2_v0_apply, val_main_call2_cst_apply]
  simp only [hl, hr, Ideal.maximumf_def, Ideal.addf_def, Ideal.ofBits_def, Ideal.ofBits_zero_f32]
  unfold Cert.Spec.hidden Cert.Spec.dot
  with_reducible rfl

theorem ff_at (b : Fin 4) (s : Fin 2048) (e' : Fin 1024) :
    val_main_v64 (F := Ideal) x0 x1 x2 x3 x4 x5 x6 x7 x8 (ix3 b s e')
      = Cert.Spec.ffRow (fun k : Fin 1024 => val_main_v55 (F := Ideal) x0 x1 x2 x7 x8 (ix3 b s k)) (fun (k : Fin 1024) (f : Fin 4096) => x3 (ix2 k f)) (fun f : Fin 4096 => x4 (ix1 f)) (fun (f : Fin 4096) (e' : Fin 1024) => x5 (ix2 f e')) (fun e' : Fin 1024 => x6 (ix1 e')) e' := by
  have hl : ∀ k : Fin 4096, lidx_main_v61 (ix3 b s e') k = ix3 b s k := fun k => eq_ix3 _
  have hr : ∀ k : Fin 4096, ridx_main_v61 (ix3 b s e') k = ix2 k e' := fun k => eq_ix2 _
  have h62 : idx_main_v62 (idx_main_v63 (ix3 b s e')) = ix1 e' := eq_ix1 _
  rw [val_main_v64_apply, val_main_v61_apply, val_main_v63_apply, val_main_v62_apply, h62]
  simp only [hl, hr, hidden_at, Ideal.addf_def]
  unfold Cert.Spec.ffRow Cert.Spec.dot
  with_reducible rfl

theorem mean2_at (b : Fin 4) (s : Fin 2048) (z : Fin 1) :
    val_main_v68 (F := Ideal) x0 x1 x2 x3 x4 x5 x6 x7 x8 (ix3 b s z)
      = Cert.Spec.mean (fun e' : Fin 1024 => val_main_v64 (F := Ideal) x0 x1 x2 x3 x4 x5 x6 x7 x8 (ix3 b s e')) := by
  have h65 : ∀ k : Fin 1024, idx_main_v65 (idx_main_v66 (ix3 b s z)) k = ix3 b s k := fun k => eq_ix3 _
  rw [val_main_v68_apply, val_main_v66_apply, val_main_v65_apply, val_main_v67_apply, val_main_cst_9_apply,
    val_main_cst_10_apply]
  simp only [h65, Ideal.hostDivf_def, Ideal.ofBits_def, Ideal.ofBits_zero_f32, zero_add]
  rfl

theorem sq2_at (b : Fin 4) (s : Fin 2048) (k : Fin 1024) :
    val_main_v71 (F := Ideal) x0 x1 x2 x3 x4 x5 x6 x7 x8 (ix3 b s k)
      = dev2 (fun e' : Fin 1024 => val_main_v64 (F := Ideal) x0 x1 x2 x3 x4 x5 x6 x7 x8 (ix3 b s e')) k := by
  have h69 : idx_main_v69 (ix3 b s k) = ix3 b s (0 : Fin 1) := eq_ix3 _
  rw [val_main_v71_apply, val_main_v70_apply, val_main_v69_apply, h69, mean2_at]
  simp only [Ideal.mulf_def, Ideal.subf_def, dev2]

theorem var2_at (b : Fin 4) (s : Fin 2048) (z : Fin 1) :
    val_main_v75 (F := Ideal) x0 x1 x2 x3 x4 x5 x6 x7 x8 (ix3 b s z)
      = Cert.Spec.var (fun e' : Fin 1024 => val_main_v64 (F := Ideal) x0 x1 x2 x3 x4 x5 x6 x7 x8 (ix3 b s e')) := by
  have h72 : ∀ k : Fin 1024, idx_main_v72 (idx_main_v73 (ix3 b s z)) k = ix3 b s k := fun k => eq_ix3 _
  rw [val_main_v75_apply, val_main_v73_apply, val_main_v72_apply, val_main_v74_apply, val_main_cst_11_apply,
    val_main_cst_12_apply]
  simp only [h72, sq2_at, Ideal.hostDivf_def, Ideal.ofBits_def, Ideal.ofBits_zero_f32, zero_add]
  rfl

theorem ref_v89 (b : Fin 4) (s : Fin 2048) (e : Fin 1024) :
    val_main_v89 (F := Ideal) x0 x1 x2 x3 x4 x5 x6 x7 x8 x9 x10 (ix3 b s e)
      = Cert.Spec.lnRow
          (Cert.Spec.ffRow (fun k : Fin 1024 => val_main_v55 (F := Ideal) x0 x1 x2 x7 x8 (ix3 b s k)) (fun (k : Fin 1024) (f : Fin 4096) => x3 (ix2 k f))
            (fun f : Fin 4096 => x4 (ix1 f)) (fun (f : Fin 4096) (e' : Fin 1024) => x5 (ix2 f e')) (fun e' : Fin 1024 => x6 (ix1 e')))
          (fun e' : Fin 1024 => x9 (ix1 e')) (fun e' : Fin 1024 => x10 (ix1 e')) e
        + val_main_v55 (F := Ideal) x0 x1 x2 x7 x8 (ix3 b s e) := by
  have h76 : idx_main_v76 (ix3 b s e) = ix3 b s (0 : Fin 1) := eq_ix3 _
  have h81 : idx_main_v81 (ix3 b s e) = ix3 b s (0 : Fin 1) := eq_ix3 _
  have h83 : idx_main_v83 (idx_main_v84 (ix3 b s e)) = ix1 e := eq_ix1 _
  have h86 : idx_main_v86 (idx_main_v87 (ix3 b s e)) = ix1 e := eq_ix1 _
  have hy := funext fun e' => ff_at x0 x1 x2 x3 x4 x5 x6 x7 x8 b s e'
  rw [val_main_v89_apply, val_main_v88_apply, val_main_v85_apply, val_main_v87_apply, val_main_v86_apply, h86,
    val_main_v82_apply, val_main_v84_apply, val_main_v83_apply, h83, val_main_v77_apply, val_main_v81_apply, h81,
    val_main_v76_apply, h76, val_main_v80_apply, val_main_v79_apply, val_main_v78_apply, val_main_cst_13_apply,
    mean2_at, var2_at, ff_at, hy]
  simp only [Ideal.addf_def, Ideal.mulf_def, Ideal.subf_def, Ideal.hostUnary_rsqrt_def, Ideal.ofBits_def]
  unfold Cert.Spec.lnRow Cert.Spec.cEps
  with_reducible rfl

end Cert.ReferenceIdeal.RefValue

end
-- ==== Proof.Bridge01.lean ====
import proofs.«423649_j35837207118382_3_alg».proof.Proof.KernelIdeal.Fold
import proofs.«423649_j35837207118382_3_alg».proof.Proof.KernelIdeal.Value0
import proofs.«423649_j35837207118382_3_alg».proof.Proof.KernelIdeal.Value1
import proofs.«423649_j35837207118382_3_alg».proof.Proof.KernelIdeal.Value2
import proofs.«423649_j35837207118382_3_alg».proof.Proof.KernelIdeal.Value3
import proofs.«423649_j35837207118382_3_alg».proof.Proof.Ref.Attn
import proofs.«423649_j35837207118382_3_alg».proof.Proof.Ref.Tail
import proofs.«423649_j35837207118382_3_alg».proof.Proof.Math.OnlineSoftmax
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Cert.ReferenceIdeal.Read (val_main_v0 val_main_v4 val_main_v6 val_main_v8 val_main_v27 val_main_v29 val_main_v55 val_main_v89)
open Cert.ReferenceIdeal.RefValue (col ref_v0 ref_v4 ref_v6 ref_v8 ref_v27)

variable (m : (ℓ : Loc nD τ sig) → Buf (Elt Ideal) ℓ)

abbrev a0 (c : Dev nD) : Vec Ideal S4x2048x1024 .f32 := m ((c : Thread nD τ).loc main_arg0)
abbrev a1 (c : Dev nD) : Vec Ideal S1024x3072 .f32 := m ((c : Thread nD τ).loc main_arg1)

def row (b : Fin 4) (s : Fin 2048) : Fin 8192 := ⟨b.val * 2048 + s.val, by omega⟩
def head (b : Fin 4) (h : Fin 16) : Fin 64 := ⟨b.val * 16 + h.val, by omega⟩
def hcol (h : Fin 16) (d : Fin 64) : Fin 1024 := ⟨h.val * 64 + d.val, by omega⟩

theorem exists_head (i : Fin 64) : ∃ b h, i = head b h :=
  ⟨⟨i.val / 16, by omega⟩, ⟨i.val % 16, by omega⟩, Fin.ext (by simp only [head]; omega)⟩
theorem exists_hcol (i : Fin 1024) : ∃ h d, i = hcol h d :=
  ⟨⟨i.val / 64, by omega⟩, ⟨i.val % 64, by omega⟩, Fin.ext (by simp only [hcol]; omega)⟩

theorem X0_at (c : Dev nD) (b : Fin 4) (s : Fin 2048) (k : Fin 1024) :
    X0 (ent0 m) c (ix2 (row b s) k) = a0 m c (ix3 b s k) := by
  show StableHlo.after Gen.hostOps0 _ _ _ = _
  after_results
  exact shapeCast_apply _ shapeCasts_S4x2048x1024_S8192x1024 _ (ix3 b s k) (by rw [Shape.rowMajor_val_three, Shape.rowMajor_val_two]; rfl)

theorem Wq0_at (c : Dev nD) (i : S1024x3072.Idx) : Wq0 (ent0 m) c i = a1 m c i := by
  show StableHlo.after Gen.hostOps0 _ _ _ = _
  after_results
  all_goals rfl

theorem B0_at (c : Dev nD) (f : Fin 3072) : B0 (ent0 m) c (ix2 (0 : Fin 1) f) = 0 := by
  show StableHlo.after Gen.hostOps0 _ _ _ = _
  after_results
  exact (shapeCast_a_1a_apply _ _ 0 f).trans Ideal.ofBits_zero_f32

theorem bridge0 (c : Dev nD) (b : Fin 4) (s : Fin 2048) (f : Fin 3072) :
    res0 (ent0 m) c (ix2 (row b s) f) = val_main_v0 (F := Ideal) (a0 m c) (a1 m c) (ix3 b s f) := by
  rw [value0, ref_v0]
  simp only [X0_at m c, Wq0_at m c, B0_at m c, add_zero]

def headsOf (off : Fin 5 → ℕ) (hs : S4x16x3x2048x64.Slices off S4x16x1x2048x64) (y : Vec Ideal S8192x3072 .bf16) :
    Vec Ideal S64x2048x64 .bf16 :=
  shapeCast S64x2048x64
    (shapeCast S4x16x2048x64
      (extractStridedSlice S4x16x1x2048x64 off
        (transpose S4x16x3x2048x64 [0, 2, 3, 1, 4]
          (shapeCast S4x2048x16x3x64 y shapeCasts_S8192x3072_S4x2048x16x3x64)
          transposes_S4x2048x16x3x64_S4x16x3x2048x64_0_2_3_1_4)
        hs)
      shapeCasts_S4x16x1x2048x64_S4x16x2048x64)
    shapeCasts_S4x16x2048x64_S64x2048x64

/-- Entry (16 b + h, j, d) of slice t is entry (2048 b + j, 192 h + 64 t + d) of the projection. -/
theorem headsOf_at (off : Fin 5 → ℕ) (hs : S4x16x3x2048x64.Slices off S4x16x1x2048x64) (t : Fin 3)
    (o0 : off 0 = 0) (o1 : off 1 = 0) (o2 : off 2 = t.val) (o3 : off 3 = 0) (o4 : off 4 = 0)
    (y : Vec Ideal S8192x3072 .bf16) (b : Fin 4) (h : Fin 16) (j : Fin 2048) (d : Fin 64) :
    headsOf off hs y (ix3 (head b h) j d) = y (ix2 (row b j) (col h t d)) := by
  refine (shapeCast_apply _ _ _ (ix4 b h j d) ?_).trans <| (shapeCast_apply _ _ _ (ix5 b h (0 : Fin 1) j d) ?_).trans <|
    (extractStridedSlice_apply off _ hs _ (ix5 b h t j d) fun a => match a with
      | ⟨0, _⟩ => by show b.val = off 0 + b.val; omega
      | ⟨1, _⟩ => by show h.val = off 1 + h.val; omega
      | ⟨2, _⟩ => by show t.val = off 2 + 0; omega
      | ⟨3, _⟩ => by show j.val = off 3 + j.val; omega
      | ⟨4, _⟩ => by show d.val = off 4 + d.val; omega).trans <|
    (transpose_apply _ _ _ _ (ix5 b j h t d) fun a => match a with
      | ⟨0, _⟩ => rfl | ⟨1, _⟩ => rfl | ⟨2, _⟩ => rfl | ⟨3, _⟩ => rfl | ⟨4, _⟩ => rfl).trans <|
    shapeCast_apply y _ _ (ix2 (row b j) (col h t d)) ?_
  · rw [Shape.rowMajor_val_four, Shape.rowMajor_val_three]
    rfl
  · rw [Shape.rowMajor_val_five, Shape.rowMajor_val_four]
    show (((b.val * 16 + h.val) * 1 + 0) * 2048 + j.val) * 64 + d.val = ((b.val * 16 + h.val) * 2048 + j.val) * 64 + d.val
    omega
  · rw [Shape.rowMajor_val_two, Shape.rowMajor_val_five]
    show (b.val * 2048 + j.val) * 3072 + (h.val * 192 + t.val * 64 + d.val)
      = (((b.val * 2048 + j.val) * 16 + h.val) * 3 + t.val) * 64 + d.val
    omega

/-- The keys, queries and values of head (b, h) are slices 0, 1 and 2 of region 0's result, as the reference's are of its projection. -/
theorem qkv_ref (c : Dev nD) (b : Fin 4) (h : Fin 16) (j : Fin 2048) (d : Fin 64) :
    K1 (ent1 m) c (ix3 (head b h) j d) = val_main_v4 (F := Ideal) (a0 m c) (a1 m c) (ix4 b h j d)
      ∧ Q1 (ent1 m) c (ix3 (head b h) j d) = val_main_v6 (F := Ideal) (a0 m c) (a1 m c) (ix4 b h j d)
      ∧ U1 (ent1 m) c (ix3 (head b h) j d) = val_main_v8 (F := Ideal) (a0 m c) (a1 m c) (ix4 b h j d) := by
  rw [ref_v4, ref_v6, ref_v8, ← bridge0, ← bridge0, ← bridge0,
    show res0 (ent0 m) c = W2 m c (Proc.devRef .tc main_v8) from (W2_arr m c 3).symm]
  refine ⟨?_, ?_, ?_⟩ <;>
  · show StableHlo.after Gen.hostOps1 _ _ _ = _
    after_results
    exact headsOf_at _ _ _ rfl rfl rfl rfl rfl _ b h j d

/-- They are reals when the activations and the weight are. -/
theorem qkv_finite (c : Dev nD) (h0 : ∀ i, ∃ r : ℝ, a0 m c i = (r : EReal)) (h1 : ∀ i, ∃ r : ℝ, a1 m c i = (r : EReal)) :
    (∀ j, ∃ r : ℝ, Q1 (ent1 m) c j = (r : EReal)) ∧ (∀ j, ∃ r : ℝ, K1 (ent1 m) c j = (r : EReal))
      ∧ ∀ j, ∃ r : ℝ, U1 (ent1 m) c j = (r : EReal) := by
  refine ⟨fun j => ?_, fun j => ?_, fun j => ?_⟩ <;>
  · obtain ⟨i, p, d, rfl⟩ : ∃ (i : Fin 64) (p : Fin 2048) (d : Fin 64), j = ix3 i p d := ⟨j 0, j 1, j 2, eq_ix3 j⟩
    obtain ⟨b, h, rfl⟩ := exists_head i
    obtain ⟨k, q, u⟩ := qkv_ref m c b h p d
    first | rw [k, ref_v4] | rw [q, ref_v6] | rw [u, ref_v8]
    rw [ref_v0]
    exact Cert.Math.dot_finite _ _ (fun k => h0 _) (fun k => h1 _)

theorem bridge1 (c : Dev nD) (h0 : ∀ i, ∃ r : ℝ, a0 m c i = (r : EReal)) (h1 : ∀ i, ∃ r : ℝ, a1 m c i = (r : EReal))
    (b : Fin 4) (h : Fin 16) (p : Fin 2048) (d : Fin 64) :
    res1 (ent1 m) c (ix3 (head b h) p d) = val_main_v27 (F := Ideal) (a0 m c) (a1 m c) (ix4 b h p d) := by
  obtain ⟨hQ, hK, hU⟩ := qkv_finite m c h0 h1
  rw [value1 (ent1 m) c hQ hK hU, ref_v27]
  simp only [qkv_ref m c]

end Cert.KernelIdeal.Hand

end
-- ==== Proof.Bridge23.lean ====
import proofs.«423649_j35837207118382_3_alg».proof.Proof.KernelIdeal.Fold
import proofs.«423649_j35837207118382_3_alg».proof.Proof.KernelIdeal.Value0
import proofs.«423649_j35837207118382_3_alg».proof.Proof.KernelIdeal.Value1
import proofs.«423649_j35837207118382_3_alg».proof.Proof.KernelIdeal.Value2
import proofs.«423649_j35837207118382_3_alg».proof.Proof.KernelIdeal.Value3
import proofs.«423649_j35837207118382_3_alg».proof.Proof.Ref.Attn
import proofs.«423649_j35837207118382_3_alg».proof.Proof.Ref.Tail
import proofs.«423649_j35837207118382_3_alg».proof.Proof.Math.OnlineSoftmax
import proofs.«423649_j35837207118382_3_alg».proof.Proof.Bridge01
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Cert.ReferenceIdeal.Read (val_main_v0 val_main_v4 val_main_v6 val_main_v8 val_main_v27 val_main_v29 val_main_v55 val_main_v89)
open Cert.ReferenceIdeal.RefValue (col ref_v29 ref_v55 ref_v89)

variable (m : (ℓ : Loc nD τ sig) → Buf (Elt Ideal) ℓ)

abbrev a2 (c : Dev nD) : Vec Ideal S1024x1024 .f32 := m ((c : Thread nD τ).loc main_arg2)
abbrev a3 (c : Dev nD) : Vec Ideal S1024x4096 .f32 := m ((c : Thread nD τ).loc main_arg3)
abbrev a4 (c : Dev nD) : Vec Ideal S4096 .f32 := m ((c : Thread nD τ).loc main_arg4)
abbrev a5 (c : Dev nD) : Vec Ideal S4096x1024 .f32 := m ((c : Thread nD τ).loc main_arg5)
abbrev a6 (c : Dev nD) : Vec Ideal S1024 .f32 := m ((c : Thread nD τ).loc main_arg6)
abbrev a7 (c : Dev nD) : Vec Ideal S1024 .f32 := m ((c : Thread nD τ).loc main_arg7)
abbrev a8 (c : Dev nD) : Vec Ideal S1024 .f32 := m ((c : Thread nD τ).loc main_arg8)
abbrev a9 (c : Dev nD) : Vec Ideal S1024 .f32 := m ((c : Thread nD τ).loc main_arg9)
abbrev a10 (c : Dev nD) : Vec Ideal S1024 .f32 := m ((c : Thread nD τ).loc main_arg10)

theorem W4_keep (c : Dev nD) (r : Ref sig .tc)
    (h : (∀ w, Pipeline.arrRef spec0 w ≠ r) ∧ r ∉ Gen.hostOps1_W ∧ ∀ w, Pipeline.arrRef spec1 w ≠ r) :
    W4 m c (Proc.devRef .tc r) = W1 m c (Proc.devRef .tc r) :=
  (W4_of_ne m c r h.2.2).trans <| (StableHlo.after_of_writes_sub Gen.hostOps1 _ Gen.hostOps1_writes h.2.1).trans <| W2_of_ne m c r h.1

theorem W6_keep (c : Dev nD) (r : Ref sig .tc)
    (h : ((∀ w, Pipeline.arrRef spec0 w ≠ r) ∧ r ∉ Gen.hostOps1_W ∧ ∀ w, Pipeline.arrRef spec1 w ≠ r)
      ∧ r ∉ Gen.hostOps2_W ∧ ∀ w, Pipeline.arrRef spec2 w ≠ r) :
    W6 m c (Proc.devRef .tc r) = W1 m c (Proc.devRef .tc r) :=
  (W6_of_ne m c r h.2.2).trans <| (StableHlo.after_of_writes_sub Gen.hostOps2 _ Gen.hostOps2_writes h.2.1).trans <| W4_keep m c r h.1

theorem arg_keep (c : Dev nD) (r : Ref sig .tc)
    (h : r ∉ Gen.hostOps0_W ∧ ((∀ w, Pipeline.arrRef spec0 w ≠ r) ∧ r ∉ Gen.hostOps1_W ∧ ∀ w, Pipeline.arrRef spec1 w ≠ r)
      ∧ r ∉ Gen.hostOps2_W ∧ ∀ w, Pipeline.arrRef spec2 w ≠ r) :
    W4 m c (Proc.devRef .tc r) = m ((c : Thread nD τ).loc r) ∧ W6 m c (Proc.devRef .tc r) = m ((c : Thread nD τ).loc r) :=
  have l := StableHlo.after_of_writes_sub Gen.hostOps0 _ Gen.hostOps0_writes h.1
  ⟨(W4_keep m c r h.2.1).trans l, (W6_keep m c r h.2).trans l⟩

/-- Row (b, s) of the attention rows region 2 reads is the reference's heads laid side by side. -/
theorem H2_ref (c : Dev nD) (h0 : ∀ i, ∃ r : ℝ, a0 m c i = (r : EReal)) (h1 : ∀ i, ∃ r : ℝ, a1 m c i = (r : EReal))
    (b : Fin 4) (s : Fin 2048) (k : Fin 1024) :
    H2 (ent2 m) c (ix2 (row b s) k) = val_main_v29 (F := Ideal) (a0 m c) (a1 m c) (ix3 b s k) := by
  obtain ⟨h, d, rfl⟩ := exists_hcol k
  refine Eq.trans ?_ ((bridge1 m c h0 h1 b h s d).trans (ref_v29 (a0 m c) (a1 m c) b s h d).symm)
  rw [show res1 (ent1 m) c = W4 m c (Proc.devRef .tc main_v20) from (W4_arr m c 3).symm]
  show StableHlo.after Gen.hostOps2 _ _ _ = _
  after_results
  refine (shapeCast_apply _ shapeCasts_S4x2048x16x64_S8192x1024 _ (ix4 b s h d) ?_).trans <|
    (transpose_apply _ _ transposes_S4x16x2048x64_S4x2048x16x64_0_2_1_3 _ (ix4 b h s d) fun a => match a with
      | ⟨0, _⟩ => rfl | ⟨1, _⟩ => rfl | ⟨2, _⟩ => rfl | ⟨3, _⟩ => rfl).trans <|
    shapeCast_apply _ shapeCasts_S64x2048x64_S4x16x2048x64 _ (ix3 (head b h) s d) ?_
  · rw [Shape.rowMajor_val_four, Shape.rowMajor_val_two]
    show ((b.val * 2048 + s.val) * 16 + h.val) * 64 + d.val = (b.val * 2048 + s.val) * 1024 + (h.val * 64 + d.val)
    omega
  · rw [Shape.rowMajor_val_three, Shape.rowMajor_val_four]
    rfl

/-- The three weights are the arguments they were made from. -/
theorem weights (c : Dev nD) :
    (∀ i, Wo2 (ent2 m) c i = a2 m c i) ∧ (∀ i, Wu3 (ent3 m) c i = a3 m c i) ∧ ∀ i, Wd3 (ent3 m) c i = a5 m c i := by
  refine ⟨fun i => ?_, fun i => ?_, fun i => ?_⟩ <;>
  · show StableHlo.after _ _ _ _ = _
    after_results
    first
      | refine (congrFun (W4_keep m c _ (by decide)) _).trans ?_
      | refine (congrFun (W6_keep m c _ (by decide)) _).trans ?_
    after_results
    rfl

theorem B2_at (c : Dev nD) (e : Fin 1024) : B2 (ent2 m) c (ix2 0 e) = 0 := by
  show StableHlo.after Gen.hostOps2 _ _ _ = _
  after_results
  refine (shapeCast_a_1a_apply _ _ 0 e).trans ?_
  rw [W4_keep m c main_v6 (by decide)]
  after_results
  exact Ideal.ofBits_zero_f32

theorem R2_entry (c : Dev nD) : R2 (ent2 m) c = X0 (ent0 m) c :=
  (StableHlo.after_of_writes_sub Gen.hostOps2 _ Gen.hostOps2_writes (by decide)).trans <|
    (W4_of_ne m c main_v0 (by decide)).trans <|
    (StableHlo.after_of_writes_sub Gen.hostOps1 _ Gen.hostOps1_writes (by decide)).trans <|
    (W2_arr m c 0).trans (Pipeline.Dat.arrAt_in (dat0 (F := Ideal) (ent0 m) c) 0 (by rfl) _)

theorem X3_entry (c : Dev nD) : X3 (ent3 m) c = res2 (ent2 m) c :=
  (StableHlo.after_of_writes_sub Gen.hostOps3 _ Gen.hostOps3_writes (by decide)).trans (W6_arr m c 6)

/-- The scale, shift and bias rows the last two regions read are arguments 7, 8, 4, 6, 9 and 10 with a unit axis in front. -/
theorem rows (c : Dev nD) :
    (∀ e : Fin 1024, G2 (ent2 m) c (ix2 0 e) = a7 m c (ix1 e)) ∧ (∀ e : Fin 1024, L2 (ent2 m) c (ix2 0 e) = a8 m c (ix1 e))
      ∧ (∀ f : Fin 4096, Bu3 (ent3 m) c (ix2 0 f) = a4 m c (ix1 f)) ∧ (∀ e : Fin 1024, Bd3 (ent3 m) c (ix2 0 e) = a6 m c (ix1 e))
      ∧ (∀ e : Fin 1024, G3 (ent3 m) c (ix2 0 e) = a9 m c (ix1 e)) ∧ ∀ e : Fin 1024, L3 (ent3 m) c (ix2 0 e) = a10 m c (ix1 e) := by
  refine ⟨fun e => ?_, fun e => ?_, fun e => ?_, fun e => ?_, fun e => ?_, fun e => ?_⟩ <;>
  · show StableHlo.after _ _ _ _ = _
    after_results
    refine (shapeCast_a_1a_apply _ _ 0 e).trans (congrFun ?_ _)
    first | exact (arg_keep m c _ (by decide)).1 | exact (arg_keep m c _ (by decide)).2

theorem bridge2 (c : Dev nD) (h0 : ∀ i, ∃ r : ℝ, a0 m c i = (r : EReal)) (h1 : ∀ i, ∃ r : ℝ, a1 m c i = (r : EReal))
    (b : Fin 4) (s : Fin 2048) (e : Fin 1024) :
    res2 (ent2 m) c (ix2 (row b s) e) = val_main_v55 (F := Ideal) (a0 m c) (a1 m c) (a2 m c) (a7 m c) (a8 m c) (ix3 b s e) := by
  rw [value2, ref_v55, R2_entry, X0_at]
  simp only [H2_ref m c h0 h1, weights m c, B2_at m c, rows m c, add_zero]

theorem bridge3 (c : Dev nD) (h0 : ∀ i, ∃ r : ℝ, a0 m c i = (r : EReal)) (h1 : ∀ i, ∃ r : ℝ, a1 m c i = (r : EReal))
    (b : Fin 4) (s : Fin 2048) (e : Fin 1024) :
    res3 (ent3 m) c (ix2 (row b s) e)
      = val_main_v89 (F := Ideal) (a0 m c) (a1 m c) (a2 m c) (a3 m c) (a4 m c) (a5 m c) (a6 m c) (a7 m c) (a8 m c) (a9 m c) (a10 m c) (ix3 b s e) := by
  rw [value3, ref_v89, X3_entry]
  simp only [bridge2 m c h0 h1, weights m c, rows m c]

theorem result_eq (c : Dev nD) (h0 : ∀ i, ∃ r : ℝ, a0 m c i = (r : EReal)) (h1 : ∀ i, ∃ r : ℝ, a1 m c i = (r : EReal)) :
    (show Vec Ideal S4x2048x1024 .f32 from W9 m c (Proc.devRef .tc main_v33))
      = val_main_v89 (F := Ideal) (a0 m c) (a1 m c) (a2 m c) (a3 m c) (a4 m c) (a5 m c) (a6 m c) (a7 m c) (a8 m c) (a9 m c) (a10 m c) := by
  funext j
  obtain ⟨b, s, e, rfl⟩ : ∃ (b : Fin 4) (s : Fin 2048) (e : Fin 1024), j = ix3 b s e := ⟨j 0, j 1, j 2, eq_ix3 j⟩
  rw [← bridge3 m c h0 h1, show res3 (ent3 m) c = W8 m c (Proc.devRef .tc main_v32) from (W8_arr m c 7).symm]
  after_results
  exact shapeCast_apply _ shapeCasts_S8192x1024_S4x2048x1024 _ (ix2 (row b s) e) (by rw [Shape.rowMajor_val_three, Shape.rowMajor_val_two]; rfl)

end Cert.KernelIdeal.Hand

end
-- ==== Proof.Finite.lean ====
import proofs.«423649_j35837207118382_3_alg».proof.Defs
import proofs.«423649_j35837207118382_3_alg».proof.Proof.Gen.Pre_finite_inputs
import Idealize.ShloMosaic.Lib.ReduceAll
import Idealize.ShloMosaic.Lib.ValueIdx

set_option maxRecDepth 16384

noncomputable section

namespace Cert.KernelIdeal.Hand

open Cert.KernelIdeal
open Idealize.ShloMosaic Idealize.ShloMosaic.TcCoe Idealize.ShloMosaic.ValueIdx Idealize.SL.Sem

instance subsingleton_scalar_idx : Subsingleton Cert.Pre_finite_inputs.S_.Idx :=
  ⟨fun a b => funext fun d => d.elim0⟩

theorem inf_word : Ideal.ofBits .f32 0x7F800000#32 = (⊤ : EReal) := by
  simp [Ideal.ofBits, Ideal.ieee]

theorem real_of_abs_lt_top (x : EReal)
    (hx : Ideal.cmp .olt (max x (-x)) (⊤ : EReal) = 1#1) : ∃ r : ℝ, x = (r : EReal) := by
  induction x using EReal.rec with
  | bot => simp [Ideal.cmp] at hx
  | coe r => exact ⟨r, rfl⟩
  | top => simp [Ideal.cmp] at hx

theorem andi_at {s : Shape} (x y : IVec s 1) (j : s.Idx) (e : andi x y j = 1#1) :
    x j = 1#1 ∧ y j = 1#1 :=
  IntOp.andi_eq_one.1 e

theorem real_of_all_lt_inf {s : Shape} {axes : List (Fin s.rank)} {x : FVec Ideal s .f32}
    {hb : Cert.Pre_finite_inputs.S_.BroadcastsInDim s (![] : Fin 0 → Fin s.rank)}
    {hr : s.ReducesTo axes Cert.Pre_finite_inputs.S_} {hu : 0 < Cert.Pre_finite_inputs.S_.numel}
    {j : Cert.Pre_finite_inputs.S_.Idx}
    (e : Host.reduce IntOp.andi
          (cmpf .olt (Host.absf x)
            (broadcastInDim s ![] hb (constant Cert.Pre_finite_inputs.S_ .f32 0x7F800000#32)))
          (constantI Cert.Pre_finite_inputs.S_ 1 1#1) hr hu j = 1#1)
    (i : s.Idx) : ∃ r : ℝ, x i = (r : EReal) := by
  have hi : Ideal.cmp .olt (max (x i) (-(x i))) (Ideal.ofBits .f32 0x7F800000#32) = 1#1 :=
    Host.reduce_andi_all _ _ hr hu j e i
  rw [inf_word] at hi
  exact real_of_abs_lt_top (x i) hi

theorem finite_of_pre [hP : Cert.Pre_finite_inputs.Facts] (m : (ℓ : Loc nD τ sig) → Buf (Elt Ideal) ℓ)
    (h : Cert.Pre_KernelIdeal m) (c : Dev nD) :
    (∀ i, ∃ r : ℝ, (show Vec Ideal S4x2048x1024 .f32 from m ((c : Thread nD τ).loc main_arg0)) i = (r : EReal))
    ∧ (∀ i, ∃ r : ℝ, (show Vec Ideal S1024x3072 .f32 from m ((c : Thread nD τ).loc main_arg1)) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  iterate 9 obtain ⟨h0, -⟩ := andi_at _ _ _ h0
  obtain ⟨h3, h7⟩ := andi_at _ _ _ h0
  exact ⟨fun i => real_of_all_lt_inf h3 i, fun i => real_of_all_lt_inf h7 i⟩

end Cert.KernelIdeal.Hand

end
-- ==== Proof.lean ====
-- A transformer block as four tiled kernels against its plain reference: frames, the one named constant, and equal results on the extended reals.
import proofs.«423649_j35837207118382_3_alg».proof.Defs
import proofs.«423649_j35837207118382_3_alg».proof.Proof.Gen.Kernel
import proofs.«423649_j35837207118382_3_alg».proof.Proof.Gen.KernelIdeal
import proofs.«423649_j35837207118382_3_alg».proof.Proof.Gen.ReferenceIdeal
import proofs.«423649_j35837207118382_3_alg».proof.Proof.Gen.Pre_finite_inputs
import proofs.«423649_j35837207118382_3_alg».proof.Proof.Gen.ReferenceIdeal.Run
import proofs.«423649_j35837207118382_3_alg».proof.Proof.Gen.ReferenceIdeal.Read
import proofs.«423649_j35837207118382_3_alg».proof.Proof.Kernel.Launch
import proofs.«423649_j35837207118382_3_alg».proof.Proof.KernelIdeal.Launch
import proofs.«423649_j35837207118382_3_alg».proof.Proof.Bridge23
import proofs.«423649_j35837207118382_3_alg».proof.Proof.Finite
import Idealize.ShloMosaic.Adequacy
import Idealize.ShloMosaic.Init
import Idealize.ShloMosaic.PureOps.IdealRules

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  IdealRules.named_const.statement Cert.KernelIdeal.κ "neg_big" .f32 0xFF333332#32 ⊥ rfl

theorem algebraic : Cert.algebraic_KernelIdeal_ReferenceIdeal := by
  intro m ρ m' ρ' hpre hagree
  refine ⟨fun c => Cert.KernelIdeal.Hand.W9 m c (Proc.devRef .tc Cert.KernelIdeal.main_v33),
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v89_eq, e0, e1, e2, e3, e4, e5, e6, e7, e8, e9, e10]
  exact (Cert.KernelIdeal.Hand.result_eq m c (Cert.KernelIdeal.Hand.finite_of_pre m hpre c).1
    (Cert.KernelIdeal.Hand.finite_of_pre m hpre c).2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
